-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S32x10 .f32) (main_arg14 : FVec F S10 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x10 .f32 := Host.absf main_arg13
  let main_cst_20 : FVec F S_ .f32 := constant S_ .f32 0x7F800000#32
  let main_v55 : FVec F S32x10 .f32 := broadcastInDim S32x10 ![] bcast_S_S32x10 main_cst_20
  let main_v56 : IVec S32x10 1 := cmpf .olt main_v54 main_v55
  let main_c_21 : IVec S_ 1 := constantI S_ 1 1#1
  let main_v57 : IVec S_ 1 := (fun x v => Host.reduce IntOp.andi x v reducesTo_S32x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S128x64 .f32) (main_arg10 : FVec F S64 .f32) (main_arg11 : FVec F S64x32 .f32) (main_arg12 : FVec F S32 .f32) (main_arg13 : FVec F S32x10 .f32) (main_arg14 : FVec F S10 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_v48 main_v49 main_v50

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_arg11 : FVec F S64x32 .f32) (main_arg12 : FVec F S32 .f32) (main_arg13 : FVec F S32x10 .f32) (main_arg14 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S64x32 .f32) (main_arg12 : FVec F S32 .f32) (main_arg13 : FVec F S32x10 .f32) (main_arg14 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩
abbrev S100000x1 : Shape := ⟨2, ![100000, 1]⟩
abbrev S1x10 : Shape := ⟨2, ![1, 10]⟩
abbrev S64x10 : Shape := ⟨2, ![64, 10]⟩
abbrev S5000x1 : Shape := ⟨2, ![5000, 1]⟩
abbrev S64x1 : Shape := ⟨2, ![64, 1]⟩
abbrev S64x5000 : Shape := ⟨2, ![64, 5000]⟩

abbrev nBuf : Space → Nat
  | .hbm => 149
  | .vmem => 59
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x10, .f32⟩
  | 14 => ⟨S10, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .i32⟩
  | 76 => ⟨S1700000, .i32⟩
  | 77 => ⟨S1700000, .i1⟩
  | 78 => ⟨S_, .i32⟩
  | 79 => ⟨S1700000, .i32⟩
  | 80 => ⟨S1700000, .i32⟩
  | 81 => ⟨S1700000, .i32⟩
  | 82 => ⟨S1700000x1, .i32⟩
  | 83 => ⟨S1700000x128, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S1x128, .f32⟩
  | 91 => ⟨S100000x128, .f32⟩
  | 92 => ⟨S100000x128, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x128, .f32⟩
  | 102 => ⟨S1700000x128, .f32⟩
  | 103 => ⟨S1700000x128, .f32⟩
  | 104 => ⟨S_, .f32⟩
  | 105 => ⟨S100000x128, .f32⟩
  | 106 => ⟨S1700000x1, .i32⟩
  | 107 => ⟨S100000x128, .f32⟩
  | 108 => ⟨S1x128, .f32⟩
  | 109 => ⟨S100000x128, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x64, .f32⟩
  | 121 => ⟨S1700000x64, .f32⟩
  | 122 => ⟨S_, .f32⟩
  | 123 => ⟨S100000x64, .f32⟩
  | 124 => ⟨S1700000x1, .i32⟩
  | 125 => ⟨S100000x64, .f32⟩
  | 126 => ⟨S1x64, .f32⟩
  | 127 => ⟨S100000x64, .f32⟩
  | _ => ⟨S100000x128, .f32⟩

abbrev hbmTy0_1 (i : Nat) : BufTy := match i % 128 with
  | 0 => ⟨S100000x32, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000x32, .f32⟩
  | 10 => ⟨S1700000x32, .f32⟩
  | 11 => ⟨S1700000x32, .f32⟩
  | 12 => ⟨S_, .f32⟩
  | 13 => ⟨S100000x32, .f32⟩
  | 14 => ⟨S1700000x1, .i32⟩
  | 15 => ⟨S100000x32, .f32⟩
  | 16 => ⟨S1x32, .f32⟩
  | 17 => ⟨S100000x32, .f32⟩
  | 18 => ⟨S100000x1, .i32⟩
  | 19 => ⟨S1x10, .f32⟩
  | 20 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x32, .f32⟩
  | .local _ .vmem, ⟨43, _⟩ => ⟨S5000x32, .f32⟩
  | .local _ .vmem, ⟨44, _⟩ => ⟨S5000x32, .f32⟩
  | .local _ .vmem, ⟨45, _⟩ => ⟨S5000x32, .f32⟩
  | .local _ .vmem, ⟨46, _⟩ => ⟨S5000x32, .f32⟩
  | .local _ .vmem, ⟨47, _⟩ => ⟨S1x32, .f32⟩
  | .local _ .vmem, ⟨48, _⟩ => ⟨S5000x32, .f32⟩
  | .local _ .vmem, ⟨49, _⟩ => ⟨S5000x32, .f32⟩
  | .local _ .vmem, ⟨50, _⟩ => ⟨S5000x32, .f32⟩
  | .local _ .vmem, ⟨51, _⟩ => ⟨S5000x32, .f32⟩
  | .local _ .vmem, ⟨52, _⟩ => ⟨S5000x1, .i32⟩
  | .local _ .vmem, ⟨53, _⟩ => ⟨S5000x1, .i32⟩
  | .local _ .vmem, ⟨54, _⟩ => ⟨S32x10, .f32⟩
  | .local _ .vmem, ⟨55, _⟩ => ⟨S1x10, .f32⟩
  | .local _ .vmem, ⟨56, _⟩ => ⟨S64x10, .f32⟩
  | .local _ .vmem, ⟨57, _⟩ => ⟨S64x32, .f32⟩
  | .local _ .vmem, ⟨58, _⟩ => ⟨S64x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_c_10 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_11 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_c_12 : Ref sig .tc := ⟨.hbm, 93, rfl⟩
abbrev main_v62 : Ref sig .tc := ⟨.hbm, 94, rfl⟩
abbrev main_v63 : Ref sig .tc := ⟨.hbm, 95, rfl⟩
abbrev main_c_13 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_15 : Ref sig .tc := ⟨.hbm, 111, rfl⟩
abbrev main_v77 : Ref sig .tc := ⟨.hbm, 112, rfl⟩
abbrev main_v78 : Ref sig .tc := ⟨.hbm, 113, rfl⟩
abbrev main_c_16 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_17 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_c_18 : Ref sig .tc := ⟨.hbm, 129, rfl⟩
abbrev main_v92 : Ref sig .tc := ⟨.hbm, 130, rfl⟩
abbrev main_v93 : Ref sig .tc := ⟨.hbm, 131, rfl⟩
abbrev main_c_19 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_20 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg2_0 : Ref sig .tc := ⟨.vmem, 43, rfl⟩
abbrev cc8_stg2_1 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg2_0 : Ref sig .tc := ⟨.vmem, 48, rfl⟩
abbrev cc9_stg2_1 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg1_1 : Ref sig .tc := ⟨.vmem, 53, rfl⟩
abbrev cc10_stg2_0 : Ref sig .tc := ⟨.vmem, 54, rfl⟩
abbrev cc10_stg3_0 : Ref sig .tc := ⟨.vmem, 55, rfl⟩
abbrev cc10_stg4_0 : Ref sig .tc := ⟨.vmem, 56, rfl⟩
abbrev cc10_scratch0 : Ref sig .tc := ⟨.vmem, 57, rfl⟩
abbrev cc10_scratch1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem1_1 : DmaSem sig := 53
abbrev cc10_sem2_0 : DmaSem sig := 54
abbrev cc10_sem3_0 : DmaSem sig := 55
abbrev cc10_sem4_0 : DmaSem sig := 56

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![20], ![false]⟩

def k10_cond2 (i : grid10.Coords) : BitVec 1 :=
  let arg0 : BitVec 32 := BitVec.ofNat 32 (i 0).val
  let c19_i32 : BitVec 32 := 19#32
  let v26 : BitVec 1 := Scalar.cmpi .eq arg0 c19_i32
  let v27 : BitVec 32 := Scalar.extui v26
  let c0_i32_13 : BitVec 32 := 0#32
  let v28 : BitVec 1 := Scalar.cmpi .ne v27 c0_i32_13
  v28

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x1 .i32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S32x10 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x10 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S64x10 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S100000_S100000x1 : S100000.ShapeCasts S100000x1
  shapeCasts_S10_S1x10 : S10.ShapeCasts S1x10
  shapeCasts_S64x32_S64x32 : S64x32.ShapeCasts S64x32
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S5000x64_d1_w32 : S5000x64.Iotas .tc 32 [1]
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  natLt_1_32 : 1 < 32
  transposes_S5000x64_p1_0_S64x5000 : S5000x64.Transposes [1, 0] S64x5000
  reduces_S5000x64_S64 : S5000x64.Reduces [0] S64
  shapeCasts_S64_S64x1 : S64.ShapeCasts S64x1
  broadcasts_S64x1_S64x32 : S64x1.Broadcasts S64x32
  inb_S32x10_S32x10_0_0 : ∀ a, (![0, 0] : Fin 2 → Nat) a + S32x10.size a ≤ S32x10.size a
  h_S32x10 : 0 < S32x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S64x10 : S1x10.Broadcasts S64x10
  inb_S64x10_S64x10_0_0 : ∀ a, (![0, 0] : Fin 2 → Nat) a + S64x10.size a ≤ S64x10.size a
  h_S64x10 : 0 < S64x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S64x5000_S5000x32_S64x32_1_0_0_1_n_n_wf : DotDims.WF S64x5000 S5000x32 S64x32 [1] [0] [0] [1] [] []
  dot_S64x32_S32x10_S64x10_1_0_0_1_n_n_wf : DotDims.WF S64x32 S32x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x64.size a ≤ S100000x64.size a
  hwx6_2 : ∀ i : grid6.Coords, EltTy.bits .f32 = 32 ∨ (Rect.block (s := S100000x64) S5000x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x64.size a ≤ S1x64.size a
  hwx7_1 : ∀ i : grid7.Coords, EltTy.bits .f32 = 32 ∨ (Rect.block (s := S1x64) S1x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x64.size a ≤ S100000x64.size a
  hwx7_2 : ∀ i : grid7.Coords, EltTy.bits .f32 = 32 ∨ (Rect.block (s := S100000x64) S5000x64.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x32.size a ≤ S64x32.size a
  hwx8_1 : ∀ i : grid8.Coords, EltTy.bits .f32 = 32 ∨ (Rect.block (s := S64x32) S64x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x32.size a ≤ S100000x32.size a
  hwx8_2 : ∀ i : grid8.Coords, EltTy.bits .f32 = 32 ∨ (Rect.block (s := S100000x32) S5000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x32.size a ≤ S100000x32.size a
  hwx9_0 : ∀ i : grid9.Coords, EltTy.bits .f32 = 32 ∨ (Rect.block (s := S100000x32) S5000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x32.size a ≤ S1x32.size a
  hwx9_1 : ∀ i : grid9.Coords, EltTy.bits .f32 = 32 ∨ (Rect.block (s := S1x32) S1x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x32.size a ≤ S100000x32.size a
  hwx9_2 : ∀ i : grid9.Coords, EltTy.bits .f32 = 32 ∨ (Rect.block (s := S100000x32) S5000x32.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S100000x32.size a
  hwx10_0 : ∀ i : grid10.Coords, EltTy.bits .f32 = 32 ∨ (Rect.block (s := S100000x32) S5000x32.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x1.size a ≤ S100000x1.size a
  hwx10_1 : ∀ i : grid10.Coords, EltTy.bits .i32 = 32 ∨ (Rect.block (s := S100000x1) S5000x1.size (cc10_transform_1 i) (hinb10_1 i)).WholeWords (EltTy.packing .i32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S32x10.size a ≤ S32x10.size a
  hwx10_2 : ∀ i : grid10.Coords, EltTy.bits .f32 = 32 ∨ (Rect.block (s := S32x10) S32x10.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x10.size a ≤ S1x10.size a
  hwx10_3 : ∀ i : grid10.Coords, EltTy.bits .f32 = 32 ∨ (Rect.block (s := S1x10) S1x10.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S64x10.size a ≤ S64x10.size a
  hwx10_4 : ∀ i : grid10.Coords, EltTy.bits .f32 = 32 ∨ (Rect.block (s := S64x10) S64x10.size (cc10_transform_4 i) (hinb10_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S64x5000_S5000x32_S64x32_1_0_0_1_n_n : DotDims S64x5000 S5000x32 S64x32 where
  lhsContracting := [1]
  rhsContracting := [0]
  lhsNonContracting := [0]
  rhsNonContracting := [1]
  lhsBatch := []
  rhsBatch := []
  wf := dot_S64x5000_S5000x32_S64x32_1_0_0_1_n_n_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v75) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v76) S5000x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v88) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v89) S1x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v90) S5000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v90) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S64x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v91) S5000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v103) S5000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v104) S1x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v105) S5000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v105) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v106) S5000x1.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_arg13) S32x10.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v107) S1x10.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v108) S64x10.size cc10_transform_4 reads10_4 true true 1 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev idle10 : Fin 5 → grid10.Coords → Bool := fun | 0 => fun _ => false | 1 => fun _ => false | 2 => fun _ => false | 3 => fun _ => false | 4 => fun i => !(k10_cond2 i == 1#1) | ⟨_ + 5, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x10 : Shape := ⟨2, ![32, 10]⟩
abbrev S10 : Shape := ⟨1, ![10]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩
abbrev S100000x1 : Shape := ⟨2, ![100000, 1]⟩
abbrev S64x1 : Shape := ⟨2, ![64, 1]⟩
abbrev S64x10 : Shape := ⟨2, ![64, 10]⟩
abbrev S1x10 : Shape := ⟨2, ![1, 10]⟩

abbrev nBuf : Space → Nat
  | .hbm => 186
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S64x32, .f32⟩
  | 12 => ⟨S32, .f32⟩
  | 13 => ⟨S32x10, .f32⟩
  | 14 => ⟨S10, .f32⟩
  | 15 => ⟨S100000, .i32⟩
  | 16 => ⟨S1x1600000, .i32⟩
  | 17 => ⟨S1600000, .i32⟩
  | 18 => ⟨S1700000, .i32⟩
  | 19 => ⟨S1x1600000, .i32⟩
  | 20 => ⟨S1600000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S_, .i32⟩
  | 46 => ⟨S1700000, .i32⟩
  | 47 => ⟨S1700000, .i1⟩
  | 48 => ⟨S_, .i32⟩
  | 49 => ⟨S1700000, .i32⟩
  | 50 => ⟨S1700000, .i32⟩
  | 51 => ⟨S1700000, .i32⟩
  | 52 => ⟨S1700000x1, .i32⟩
  | 53 => ⟨S1700000, .f32⟩
  | 54 => ⟨S1700000, .f32⟩
  | 55 => ⟨S1700000x1, .f32⟩
  | 56 => ⟨S100000x128, .f32⟩
  | 57 => ⟨S_, .i32⟩
  | 58 => ⟨S1700000, .i32⟩
  | 59 => ⟨S1700000, .i1⟩
  | 60 => ⟨S_, .i32⟩
  | 61 => ⟨S1700000, .i32⟩
  | 62 => ⟨S1700000, .i32⟩
  | 63 => ⟨S1700000, .i32⟩
  | 64 => ⟨S1700000x1, .i32⟩
  | 65 => ⟨S1700000x128, .f32⟩
  | 66 => ⟨S1700000x128, .f32⟩
  | 67 => ⟨S1700000x128, .f32⟩
  | 68 => ⟨S_, .f32⟩
  | 69 => ⟨S100000x128, .f32⟩
  | 70 => ⟨S1700000x1, .i32⟩
  | 71 => ⟨S100000x128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S100000x128, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000x128, .f32⟩
  | 88 => ⟨S1700000x128, .f32⟩
  | 89 => ⟨S1700000x128, .f32⟩
  | 90 => ⟨S_, .f32⟩
  | 91 => ⟨S100000x128, .f32⟩
  | 92 => ⟨S1700000x1, .i32⟩
  | 93 => ⟨S100000x128, .f32⟩
  | 94 => ⟨S1x128, .f32⟩
  | 95 => ⟨S100000x128, .f32⟩
  | 96 => ⟨S100000x128, .f32⟩
  | 97 => ⟨S_, .f32⟩
  | 98 => ⟨S100000x128, .f32⟩
  | 99 => ⟨S100000x128, .f32⟩
  | 100 => ⟨S100000x128, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x128, .f32⟩
  | 111 => ⟨S1700000x128, .f32⟩
  | 112 => ⟨S_, .f32⟩
  | 113 => ⟨S100000x128, .f32⟩
  | 114 => ⟨S1700000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x64, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x128, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x64, .f32⟩
  | 5 => ⟨S1700000x64, .f32⟩
  | 6 => ⟨S_, .f32⟩
  | 7 => ⟨S100000x64, .f32⟩
  | 8 => ⟨S1700000x1, .i32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x32, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000x32, .f32⟩
  | 26 => ⟨S1700000x32, .f32⟩
  | 27 => ⟨S1700000x32, .f32⟩
  | 28 => ⟨S_, .f32⟩
  | 29 => ⟨S100000x32, .f32⟩
  | 30 => ⟨S1700000x1, .i32⟩
  | 31 => ⟨S100000x32, .f32⟩
  | 32 => ⟨S1x32, .f32⟩
  | 33 => ⟨S100000x32, .f32⟩
  | 34 => ⟨S100000x32, .f32⟩
  | 35 => ⟨S_, .f32⟩
  | 36 => ⟨S100000x32, .f32⟩
  | 37 => ⟨S100000x32, .f32⟩
  | 38 => ⟨S_, .f32⟩
  | 39 => ⟨S64x32, .f32⟩
  | 40 => ⟨S100000x1, .i32⟩
  | 41 => ⟨S64x32, .f32⟩
  | 42 => ⟨S_, .f32⟩
  | 43 => ⟨S100000, .f32⟩
  | 44 => ⟨S_, .f32⟩
  | 45 => ⟨S64, .f32⟩
  | 46 => ⟨S100000x1, .i32⟩
  | 47 => ⟨S64, .f32⟩
  | 48 => ⟨S_, .f32⟩
  | 49 => ⟨S64, .f32⟩
  | 50 => ⟨S64, .f32⟩
  | 51 => ⟨S64x1, .f32⟩
  | 52 => ⟨S64x32, .f32⟩
  | 53 => ⟨S64x32, .f32⟩
  | 54 => ⟨S64x10, .f32⟩
  | 55 => ⟨S1x10, .f32⟩
  | 56 => ⟨S64x10, .f32⟩
  | 57 => ⟨S64x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call2_cst : Ref sig .tc := ⟨.hbm, 97, rfl⟩
abbrev main_call2_v0 : Ref sig .tc := ⟨.hbm, 98, rfl⟩
abbrev main_v64 : Ref sig .tc := ⟨.hbm, 99, rfl⟩
abbrev main_v65 : Ref sig .tc := ⟨.hbm, 100, rfl⟩
abbrev main_c_12 : Ref sig .tc := ⟨.hbm, 101, rfl⟩
abbrev main_v66 : Ref sig .tc := ⟨.hbm, 102, rfl⟩
abbrev main_v67 : Ref sig .tc := ⟨.hbm, 103, rfl⟩
abbrev main_c_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_call3_cst : Ref sig .tc := ⟨.hbm, 119, rfl⟩
abbrev main_call3_v0 : Ref sig .tc := ⟨.hbm, 120, rfl⟩
abbrev main_v81 : Ref sig .tc := ⟨.hbm, 121, rfl⟩
abbrev main_v82 : Ref sig .tc := ⟨.hbm, 122, rfl⟩
abbrev main_c_15 : Ref sig .tc := ⟨.hbm, 123, rfl⟩
abbrev main_v83 : Ref sig .tc := ⟨.hbm, 124, rfl⟩
abbrev main_v84 : Ref sig .tc := ⟨.hbm, 125, rfl⟩
abbrev main_c_16 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_call4_cst : Ref sig .tc := ⟨.hbm, 141, rfl⟩
abbrev main_call4_v0 : Ref sig .tc := ⟨.hbm, 142, rfl⟩
abbrev main_v98 : Ref sig .tc := ⟨.hbm, 143, rfl⟩
abbrev main_v99 : Ref sig .tc := ⟨.hbm, 144, rfl⟩
abbrev main_c_18 : Ref sig .tc := ⟨.hbm, 145, rfl⟩
abbrev main_v100 : Ref sig .tc := ⟨.hbm, 146, rfl⟩
abbrev main_v101 : Ref sig .tc := ⟨.hbm, 147, rfl⟩
abbrev main_c_19 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_20 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_call5_cst : Ref sig .tc := ⟨.hbm, 163, rfl⟩
abbrev main_call5_v0 : Ref sig .tc := ⟨.hbm, 164, rfl⟩
abbrev main_v115 : Ref sig .tc := ⟨.hbm, 165, rfl⟩
abbrev main_cst_21 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_cst_22 : Ref sig .tc := ⟨.hbm, 170, rfl⟩
abbrev main_v119 : Ref sig .tc := ⟨.hbm, 171, rfl⟩
abbrev main_cst_23 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_cst_24 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x10_S64x10_1_0_0_1_n_n_wf : DotDims.WF S64x32 S32x10 S64x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x10_S64x10_1_0_0_1_n_n : DotDims S64x32 S32x10 S64x10 where
  lhsContracting := [1]
  rhsContracting := [0]
  lhsNonContracting := [0]
  rhsNonContracting := [1]
  lhsBatch := []
  rhsBatch := []
  wf := dot_S64x32_S32x10_S64x10_1_0_0_1_n_n_wf

class Facts : Prop extends Facts₀ where

variable [Facts]
-- ==== Proof.LibBodyOfKernel.lean ====
import Idealize.ShloMosaic.Lib.Pipeline.FrameBody
import Idealize.ShloMosaic.Lib.Tactic

noncomputable section

namespace Idealize.ShloMosaic.Pipeline

open Idealize.ShloMosaic.Tactic
open Idealize.SL Idealize.SL.RA Idealize.SL.BI
open scoped Idealize.SL.BI
open Idealize.SL.BI.BIBase Idealize.SL.BI.Laws Idealize.SL.ProofMode Idealize.SL.Sem
open TcCoe

variable {nD : Nat} {τ : Topo} {sig : RefSig} {Val : EltTy → Type} {Λ₀ : SL.Sem.Labels}
variable {Ix : Type} [DecidableEq Ix] {Name : Type} [DecidableEq Name] {U : Type} [URA U] {Lvl : Type} [Preorder Lvl]
variable {defs₀ : Defs nD τ sig Val Λ₀} {𝒱₀ : Variants} {c : Dev nD} {E : Set Name}

local notation "𝕄" => MT nD τ sig Ix Val Name U Lvl

/-- Two loads, a load of the output's buffer and one store that covers it leave there the payload of the two loaded values. -/
theorem wp_load2_store [∀ e, Nonempty (Val e)] {s1 s2 s3 : Shape} {e1 e2 e3 : EltTy}
    {m1 : Memref sig .tc .vmem s1 e1} {m2 : Memref sig .tc .vmem s2 e2} {m3 : Memref sig .tc .vmem s3 e3}
    (r1 : Rect s1) (r2 : Rect s2) (r3 : Rect s3) {h1 : m1.view.LoadsAt r1.toLoadRect} {h2 : m2.view.LoadsAt r2.toLoadRect}
    {h3 : m3.view.LoadsAt r3.toLoadRect} (pay : (r1.shape.Idx → Val e1) → (r2.shape.Idx → Val e2) → r3.shape.Idx → Val e3)
    {hs : (m3.access r3).Stores Finset.univ} {hm : (Finset.univ : Finset r3.shape.Idx) = Finset.univ ∨ ∀ a, r3.stride a = 1}
    (size : Fin s3.rank → ℕ) {x0 : s1.Idx → Val e1} {x1 : s2.Idx → Val e2}
    (ht : ∀ w, View.Piece.tiled [(⟨r3, w⟩ : View.Piece Val s3 e3)] size = true := by intros; rfl) :
    (iprop(owns (c : Thread nD τ) m1 fullShare x0 ∗ owns (c : Thread nD τ) m2 fullShare x1 ∗ ∃ d, owns (c : Thread nD τ) m3 fullShare d) : sProp 𝕄)
      ⊢ wp frame (wpE defs₀ 𝒱₀ c none) E
          (do let v0 ← Prog.lift (TpuEff.load m1 r1.toLoadRect h1)
              let v1 ← Prog.lift (TpuEff.load m2 r2.toLoadRect h2)
              let _ ← Prog.lift (TpuEff.load m3 r3.toLoadRect h3)
              Prog.lift (TpuEff.store m3 r3 (pay v0 v1) Finset.univ hs hm)
              pure ⟨⟩ : Prog (TpuEff nD τ sig Val Λ₀ .tc) PUnit)
          fun _ => iprop(owns (c : Thread nD τ) m1 fullShare x0 ∗ owns (c : Thread nD τ) m2 fullShare x1
            ∗ owns (c : Thread nD τ) m3 fullShare (View.canon [⟨r3, pay (View.ld x0 r1) (View.ld x1 r2)⟩])) := by
  unfold owns
  iintro ⟨⟨%f0, %hf0, H0⟩, ⟨%f1, %hf1, H1⟩, %d2, %f2, -, H2⟩
  subst hf0; subst hf1
  sl_exec
  sl_step
  isplitl [H0]
  · iexists f0; isplitr; · ipureintro; rfl
    iexact H0
  isplitl [H1]
  · iexists f1; isplitr; · ipureintro; rfl
    iexact H1
  iexists _; isplitr
  swap; · iexact H2
  ipureintro; exact View.read_writes_eq_canon _ _ _ (View.cover_of_tiled _ size (ht _))

variable {cfg : Cfg sig Λ₀} (dat : Dat τ Val Ix Name U Lvl cfg c)

/-- What makes `before w t d = after w t` hold for an input window `w`. -/
structure Dat.Kept (w : Fin cfg.W) : Prop where
  isIn : (cfg.win w).isOut = false := by rfl
  live : ∀ i, cfg.idle w i = false := by intros; rfl
  clip : ∀ t t' : Fin cfg.N, (cfg.win w).index t = (cfg.win w).index t' →
    (cfg.win w).clip (cfg.grid.coords t) = (cfg.win w).clip (cfg.grid.coords t') := by intros; rfl
  keep : ∀ t, (cfg.win w).cut (cfg.grid.coords t) (dat.after w t) = dat.blockOf w t := by intros; rfl
  fill : ∀ t d, dat.fetched w t d = dat.after w t := by intros; rfl

/-- Then the body finds in `w` what it leaves there. -/
theorem Dat.Kept.before_eq {w : Fin cfg.W} (h : dat.Kept w) (t : Fin cfg.N) (d) : dat.before w t d = dat.after w t :=
  (dat.before_in_eq_fetched w h.isIn h.live h.clip h.keep t d).trans (h.fill t d)

/-- The frame rule around a triple of the body on two such inputs and one output. -/
theorem Dat.bodyObligation_of_triple {ι : Ix} (w0 w1 w2 : Fin cfg.W)
    (hW : ∀ Φ : Fin cfg.W → sProp 𝕄, bigSep Finset.univ Φ = iprop(Φ w0 ∗ Φ w1 ∗ Φ w2))
    (hk : ∀ t : Fin cfg.N,
      (iprop(owns c ((cfg.win w0).stage (cfg.slots t w0)) fullShare (dat.after w0 t)
          ∗ owns c ((cfg.win w1).stage (cfg.slots t w1)) fullShare (dat.after w1 t)
          ∗ ∃ d, owns c ((cfg.win w2).stage (cfg.slots t w2)) fullShare d) : sProp 𝕄)
        ⊢ wp frame (wpE defs₀ 𝒱₀ c none) E (defs₀ .tc cfg.body (cfg.bodyArgs t (cfg.slots t))) fun _ =>
          iprop(owns c ((cfg.win w0).stage (cfg.slots t w0)) fullShare (dat.after w0 t)
            ∗ owns c ((cfg.win w1).stage (cfg.slots t w1)) fullShare (dat.after w1 t)
            ∗ owns c ((cfg.win w2).stage (cfg.slots t w2)) fullShare (dat.after w2 t)))
    (h0 : dat.Kept w0 := by exact {}) (h1 : dat.Kept w1 := by exact {})
    (hlive : ∀ i, cfg.idle w2 i = false := by intros; rfl)
    (hΦ : ∀ t : Fin cfg.N, dat.Φ t.succ = dat.Φ t.castSucc := by intros; rfl)
    (ho : ∀ t : Fin cfg.N, dat.owesAt ι t.succ = dat.owesAt ι t.castSucc := by intros; rfl) :
    BodyObligation dat defs₀ 𝒱₀ ι E := fun t => by
  rw [hW, hW]
  simp only [h0.live, h1.live, hlive, hΦ, ho, h0.before_eq, h1.before_eq]
  refine (sep_mono_r (sep_mono_r ?_)).trans ((sep_mono_r (wp_frame_l frame _ E)).trans (wp_frame_l frame _ E))
  refine BIBase.Entails.trans ?_ (hk t)
  iintro ⟨⟨%_, H0⟩, ⟨%_, H1⟩, ⟨%d, H2⟩⟩
  isplitl [H0]; · iexact H0
  isplitl [H1]; · iexact H1
  iexists _; iexact H2

end Idealize.ShloMosaic.Pipeline

end
-- ==== Proof.K.Mm0.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_o : Rect S5000x128 := Rect.unit (s := S5000x128) ![0, 0] S5000x128.size inb_S5000x128_S5000x128_0_0

def out0_2 (x0 : Vec F S5000x128 .f32) (x1 : Vec F S128x128 .f32) : Vec F S5000x128 .f32 :=
  View.canon [⟨r0_o, k0_pay1 (View.ld x0 r0_x) (View.ld x1 r0_w)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The body is two loads and one store over the whole output block, so the generic triple applies at every point. -/
theorem body_obligation0 (c : Dev nD) : BodyObligation (dat0 (F := F) V c) (defs₀ (F := F)) Variants.none () Set.univ :=
  (dat0 V c).bodyObligation_of_triple 0 1 2 bigSep_W0 fun t => by
    dsimp only [dat0]
    show _ ⊢ wp _ _ _ (bodyAt0 (F := F) t) _
    unfold bodyAt0; rw [cc0__matmul_kernel_eq_skeleton]
    exact wp_load2_store (e1 := .f32) (e2 := .f32) (e3 := .f32) r0_x r0_w r0_o k0_pay1 S5000x128.size

end Cert.Kernel.Gen

end
-- ==== Proof.K.Br1.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_w : Rect S1x128 := Rect.unit (s := S1x128) ![0, 0] S1x128.size inb_S1x128_S1x128_0_0
abbrev r1_o : Rect S5000x128 := Rect.unit (s := S5000x128) ![0, 0] S5000x128.size inb_S5000x128_S5000x128_0_0

def out1_2 (x0 : Vec F S5000x128 .f32) (x1 : Vec F S1x128 .f32) : Vec F S5000x128 .f32 :=
  View.canon [⟨r1_o, k1_pay1 (View.ld x0 r1_x) (View.ld x1 r1_w)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The body is two loads and one store over the whole output block, so the generic triple applies at every point. -/
theorem body_obligation1 (c : Dev nD) : BodyObligation (dat1 (F := F) V c) (defs₀ (F := F)) Variants.none () Set.univ :=
  (dat1 V c).bodyObligation_of_triple 0 1 2 bigSep_W1 fun t => by
    dsimp only [dat1]
    show _ ⊢ wp _ _ _ (bodyAt1 (F := F) t) _
    unfold bodyAt1; rw [cc1__bias_relu_kernel_eq_skeleton]
    exact wp_load2_store (e1 := .f32) (e2 := .f32) (e3 := .f32) r1_x r1_w r1_o k1_pay1 S5000x128.size

end Cert.Kernel.Gen

end
-- ==== Proof.K.Mm2.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_o : Rect S5000x128 := Rect.unit (s := S5000x128) ![0, 0] S5000x128.size inb_S5000x128_S5000x128_0_0

def out2_2 (x0 : Vec F S5000x128 .f32) (x1 : Vec F S128x128 .f32) : Vec F S5000x128 .f32 :=
  View.canon [⟨r2_o, k2_pay1 (View.ld x0 r2_x) (View.ld x1 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- The body is two loads and one store over the whole output block, so the generic triple applies at every point. -/
theorem body_obligation2 (c : Dev nD) : BodyObligation (dat2 (F := F) V c) (defs₀ (F := F)) Variants.none () Set.univ :=
  (dat2 V c).bodyObligation_of_triple 0 1 2 bigSep_W2 fun t => by
    dsimp only [dat2]
    show _ ⊢ wp _ _ _ (bodyAt2 (F := F) t) _
    unfold bodyAt2; rw [cc2__matmul_kernel_eq_skeleton]
    exact wp_load2_store (e1 := .f32) (e2 := .f32) (e3 := .f32) r2_x r2_w r2_o k2_pay1 S5000x128.size

end Cert.Kernel.Gen

end
-- ==== Proof.K.Br3.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x128 := Rect.unit (s := S5000x128) ![0, 0] S5000x128.size inb_S5000x128_S5000x128_0_0
abbrev r3_w : Rect S1x128 := Rect.unit (s := S1x128) ![0, 0] S1x128.size inb_S1x128_S1x128_0_0
abbrev r3_o : Rect S5000x128 := Rect.unit (s := S5000x128) ![0, 0] S5000x128.size inb_S5000x128_S5000x128_0_0

def out3_2 (x0 : Vec F S5000x128 .f32) (x1 : Vec F S1x128 .f32) : Vec F S5000x128 .f32 :=
  View.canon [⟨r3_o, k3_pay1 (View.ld x0 r3_x) (View.ld x1 r3_w)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The body is two loads and one store over the whole output block, so the generic triple applies at every point. -/
theorem body_obligation3 (c : Dev nD) : BodyObligation (dat3 (F := F) V c) (defs₀ (F := F)) Variants.none () Set.univ :=
  (dat3 V c).bodyObligation_of_triple 0 1 2 bigSep_W3 fun t => by
    dsimp only [dat3]
    show _ ⊢ wp _ _ _ (bodyAt3 (F := F) t) _
    unfold bodyAt3; rw [cc3__bias_relu_kernel_eq_skeleton]
    exact wp_load2_store (e1 := .f32) (e2 := .f32) (e3 := .f32) r3_x r3_w r3_o k3_pay1 S5000x128.size

end Cert.Kernel.Gen

end
-- ==== Proof.K.Mm4.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0
abbrev r4_o : Rect S5000x128 := Rect.unit (s := S5000x128) ![0, 0] S5000x128.size inb_S5000x128_S5000x128_0_0

def out4_2 (x0 : Vec F S5000x128 .f32) (x1 : Vec F S128x128 .f32) : Vec F S5000x128 .f32 :=
  View.canon [⟨r4_o, k4_pay1 (View.ld x0 r4_x) (View.ld x1 r4_w)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- The body is two loads and one store over the whole output block, so the generic triple applies at every point. -/
theorem body_obligation4 (c : Dev nD) : BodyObligation (dat4 (F := F) V c) (defs₀ (F := F)) Variants.none () Set.univ :=
  (dat4 V c).bodyObligation_of_triple 0 1 2 bigSep_W4 fun t => by
    dsimp only [dat4]
    show _ ⊢ wp _ _ _ (bodyAt4 (F := F) t) _
    unfold bodyAt4; rw [cc4__matmul_kernel_eq_skeleton]
    exact wp_load2_store (e1 := .f32) (e2 := .f32) (e3 := .f32) r4_x r4_w r4_o k4_pay1 S5000x128.size

end Cert.Kernel.Gen

end
-- ==== Proof.K.Br5.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S5000x128 := Rect.unit (s := S5000x128) ![0, 0] S5000x128.size inb_S5000x128_S5000x128_0_0
abbrev r5_w : Rect S1x128 := Rect.unit (s := S1x128) ![0, 0] S1x128.size inb_S1x128_S1x128_0_0
abbrev r5_o : Rect S5000x128 := Rect.unit (s := S5000x128) ![0, 0] S5000x128.size inb_S5000x128_S5000x128_0_0

def out5_2 (x0 : Vec F S5000x128 .f32) (x1 : Vec F S1x128 .f32) : Vec F S5000x128 .f32 :=
  View.canon [⟨r5_o, k5_pay1 (View.ld x0 r5_x) (View.ld x1 r5_w)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := rfl
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- The body is two loads and one store over the whole output block, so the generic triple applies at every point. -/
theorem body_obligation5 (c : Dev nD) : BodyObligation (dat5 (F := F) V c) (defs₀ (F := F)) Variants.none () Set.univ :=
  (dat5 V c).bodyObligation_of_triple 0 1 2 bigSep_W5 fun t => by
    dsimp only [dat5]
    show _ ⊢ wp _ _ _ (bodyAt5 (F := F) t) _
    unfold bodyAt5; rw [cc5__bias_relu_kernel_eq_skeleton]
    exact wp_load2_store (e1 := .f32) (e2 := .f32) (e3 := .f32) r5_x r5_w r5_o k5_pay1 S5000x128.size

end Cert.Kernel.Gen

end
-- ==== Proof.K.Mm6.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S5000x128 := Rect.unit (s := S5000x128) ![0, 0] S5000x128.size inb_S5000x128_S5000x128_0_0
abbrev r6_w : Rect S128x64 := Rect.unit (s := S128x64) ![0, 0] S128x64.size inb_S128x64_S128x64_0_0
abbrev r6_o : Rect S5000x64 := Rect.unit (s := S5000x64) ![0, 0] S5000x64.size inb_S5000x64_S5000x64_0_0

def out6_2 (x0 : Vec F S5000x128 .f32) (x1 : Vec F S128x64 .f32) : Vec F S5000x64 .f32 :=
  View.canon [⟨r6_o, k6_pay1 (View.ld x0 r6_x) (View.ld x1 r6_w)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- The body is two loads and one store over the whole output block, so the generic triple applies at every point. -/
theorem body_obligation6 (c : Dev nD) : BodyObligation (dat6 (F := F) V c) (defs₀ (F := F)) Variants.none () Set.univ :=
  (dat6 V c).bodyObligation_of_triple 0 1 2 bigSep_W6 fun t => by
    dsimp only [dat6]
    show _ ⊢ wp _ _ _ (bodyAt6 (F := F) t) _
    unfold bodyAt6; rw [cc6__matmul_kernel_eq_skeleton]
    exact wp_load2_store (e1 := .f32) (e2 := .f32) (e3 := .f32) r6_x r6_w r6_o k6_pay1 S5000x64.size

end Cert.Kernel.Gen

end
-- ==== Proof.K.Br7.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_x : Rect S5000x64 := Rect.unit (s := S5000x64) ![0, 0] S5000x64.size inb_S5000x64_S5000x64_0_0
abbrev r7_w : Rect S1x64 := Rect.unit (s := S1x64) ![0, 0] S1x64.size inb_S1x64_S1x64_0_0
abbrev r7_o : Rect S5000x64 := Rect.unit (s := S5000x64) ![0, 0] S5000x64.size inb_S5000x64_S5000x64_0_0

def out7_2 (x0 : Vec F S5000x64 .f32) (x1 : Vec F S1x64 .f32) : Vec F S5000x64 .f32 :=
  View.canon [⟨r7_o, k7_pay1 (View.ld x0 r7_x) (View.ld x1 r7_w)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := rfl
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- The body is two loads and one store over the whole output block, so the generic triple applies at every point. -/
theorem body_obligation7 (c : Dev nD) : BodyObligation (dat7 (F := F) V c) (defs₀ (F := F)) Variants.none () Set.univ :=
  (dat7 V c).bodyObligation_of_triple 0 1 2 bigSep_W7 fun t => by
    dsimp only [dat7]
    show _ ⊢ wp _ _ _ (bodyAt7 (F := F) t) _
    unfold bodyAt7; rw [cc7__bias_relu_kernel_eq_skeleton]
    exact wp_load2_store (e1 := .f32) (e2 := .f32) (e3 := .f32) r7_x r7_w r7_o k7_pay1 S5000x64.size

end Cert.Kernel.Gen

end
-- ==== Proof.K.Mm8.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_x : Rect S5000x64 := Rect.unit (s := S5000x64) ![0, 0] S5000x64.size inb_S5000x64_S5000x64_0_0
abbrev r8_w : Rect S64x32 := Rect.unit (s := S64x32) ![0, 0] S64x32.size inb_S64x32_S64x32_0_0
abbrev r8_o : Rect S5000x32 := Rect.unit (s := S5000x32) ![0, 0] S5000x32.size inb_S5000x32_S5000x32_0_0

def out8_2 (x0 : Vec F S5000x64 .f32) (x1 : Vec F S64x32 .f32) : Vec F S5000x32 .f32 :=
  View.canon [⟨r8_o, k8_pay1 (View.ld x0 r8_x) (View.ld x1 r8_w)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := rfl
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- The body is two loads and one store over the whole output block, so the generic triple applies at every point. -/
theorem body_obligation8 (c : Dev nD) : BodyObligation (dat8 (F := F) V c) (defs₀ (F := F)) Variants.none () Set.univ :=
  (dat8 V c).bodyObligation_of_triple 0 1 2 bigSep_W8 fun t => by
    dsimp only [dat8]
    show _ ⊢ wp _ _ _ (bodyAt8 (F := F) t) _
    unfold bodyAt8; rw [cc8__matmul_kernel_eq_skeleton]
    exact wp_load2_store (e1 := .f32) (e2 := .f32) (e3 := .f32) r8_x r8_w r8_o k8_pay1 S5000x32.size

end Cert.Kernel.Gen

end
-- ==== Proof.K.Br9.lean ====
import proofs.«419567_j13065290514766_1_alg».proof.Proof.Gen.Kernel.Launch
import proofs.«419567_j13065290514766_1_alg».proof.Proof.Gen.Kernel.Skeleton
import proofs.«419567_j13065290514766_1_alg».proof.Proof.Gen.Kernel.Points
import proofs.«419567_j13065290514766_1_alg».proof.Proof.LibBodyOfKernel

noncomputable section

namespace Cert.Kernel.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_x : Rect S5000x32 := Rect.unit (s := S5000x32) ![0, 0] S5000x32.size inb_S5000x32_S5000x32_0_0
abbrev r9_w : Rect S1x32 := Rect.unit (s := S1x32) ![0, 0] S1x32.size inb_S1x32_S1x32_0_0
abbrev r9_o : Rect S5000x32 := Rect.unit (s := S5000x32) ![0, 0] S5000x32.size inb_S5000x32_S5000x32_0_0

def out9_2 (x0 : Vec F S5000x32 .f32) (x1 : Vec F S1x32 .f32) : Vec F S5000x32 .f32 :=
  View.canon [⟨r9_o, k9_pay1 (View.ld x0 r9_x) (View.ld x1 r9_w)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := rfl
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- The body is two loads and one store over the whole output block, so the generic triple applies at every point. -/
theorem body_obligation9 (c : Dev nD) : BodyObligation (dat9 (F := F) V c) (defs₀ (F := F)) Variants.none () Set.univ :=
  (dat9 V c).bodyObligation_of_triple 0 1 2 bigSep_W9 fun t => by
    dsimp only [dat9]
    show _ ⊢ wp _ _ _ (bodyAt9 (F := F) t) _
    unfold bodyAt9; rw [cc9__bias_relu_kernel_eq_skeleton]
    exact wp_load2_store (e1 := .f32) (e2 := .f32) (e3 := .f32) r9_x r9_w r9_o k9_pay1 S5000x32.size

end Cert.Kernel.Gen

end
-- ==== Proof.K.Pool.lean ====
import proofs.«419567_j13065290514766_1_alg».proof.Proof.K.Mm0
import Idealize.ShloMosaic.Lib.Pipeline.Value

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond10_0 (i : grid10.Coords) : Prop :=
  (Scalar.cmpi .ne (Scalar.extui (Scalar.cmpi .eq (BitVec.ofNat 32 (i 0).val) 0#32)) 0#32) = 1#1

abbrev cond10_1 (i : grid10.Coords) : Prop := k10_cond2 i = 1#1

theorem hcond10_0 : ∀ t : Fin cfg10.N, cond10_0 (grid10.coords t) ↔ t.val = 0 :=
  (by decide +kernel : ∀ t : Fin grid10.N, cond10_0 (grid10.coords t) ↔ t.val = 0)

theorem hcond10_1 : ∀ t : Fin cfg10.N, cond10_1 (grid10.coords t) ↔ t.val = 19 :=
  (by decide +kernel : ∀ t : Fin grid10.N, cond10_1 (grid10.coords t) ↔ t.val = 19)

theorem hz10 : (![0, 0] : Fin 2 → Nat) = fun _ => 0 := funext fun a => by fin_cases a <;> rfl

theorem read_whole_store_last {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

set_option maxHeartbeats 2000000 in

theorem poolRun_A (c : Dev nD) (E : Set ℕ) (i : grid10.Coords)
    (arg1 : Memref sig .tc .vmem S5000x32 .f32) (harg1 : arg1.IsWhole) (arg2 : Memref sig .tc .vmem S5000x1 .i32) (harg2 : arg2.IsWhole)
    (arg3 : Memref sig .tc .vmem S32x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x32 .f32) (harg6 : arg6.IsWhole)
    (arg7 : Memref sig .tc .vmem S64x1 .f32) (harg7 : arg7.IsWhole)
    (hc0 : cond10_0 i) (hc1 : ¬ cond10_1 i)
    (x0 : Vec F S5000x32 .f32) (x1 : Vec F S5000x1 .i32) (x2 : Vec F S32x10 .f32) (x3 : Vec F S1x10 .f32) (x4 : Vec F S64x10 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k10_pay4 x1 (k10_pay1 (F := F)) x0) ∗ owns (c : Thread nD τ) arg7 fullShare (k10_pay5 x1 (k10_pay2 (F := F)))) -∗ K ⟨⟩))
      ⊢ wp frame (wpE (defs₀ (F := F)) Variants.none c none) E (cc10__pool_kernel i arg1 harg1 arg2 harg2 arg3 harg3 arg4 harg4 arg5 harg5 arg6 harg6 arg7 harg7) K := by
  simp only [cc10__pool_kernel_eq_skeleton]; unfold cc10__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_run_names
    refine (read_whole_store_last _ _ hz10 _ _ _).trans ?_
    simp only [View.readAt_eq_ld, View.readCov_unit_zero (S := S64x32) _ hz10, View.ld_unit_zero (S := S5000x1) hz10, View.ld_unit_zero (S := S5000x32) hz10]
  · iexists _; isplitr
    swap; · iexact H7
    ipureintro
    sl_unfold_run_names
    refine (read_whole_store_last _ _ hz10 _ _ _).trans ?_
    simp only [View.readAt_eq_ld, View.readCov_unit_zero (S := S64x1) _ hz10, View.ld_unit_zero (S := S5000x1) hz10]

set_option maxHeartbeats 2000000 in

theorem poolRun_B (c : Dev nD) (E : Set ℕ) (i : grid10.Coords)
    (arg1 : Memref sig .tc .vmem S5000x32 .f32) (harg1 : arg1.IsWhole) (arg2 : Memref sig .tc .vmem S5000x1 .i32) (harg2 : arg2.IsWhole)
    (arg3 : Memref sig .tc .vmem S32x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x32 .f32) (harg6 : arg6.IsWhole)
    (arg7 : Memref sig .tc .vmem S64x1 .f32) (harg7 : arg7.IsWhole)
    (hc0 : ¬ cond10_0 i) (hc1 : ¬ cond10_1 i)
    (x0 : Vec F S5000x32 .f32) (x1 : Vec F S5000x1 .i32) (x2 : Vec F S32x10 .f32) (x3 : Vec F S1x10 .f32) (x4 : Vec F S64x10 .f32)
    (s6 : Vec F S64x32 .f32) (s7 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s6 ∗ owns (c : Thread nD τ) arg7 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k10_pay4 x1 s6 x0) ∗ owns (c : Thread nD τ) arg7 fullShare (k10_pay5 x1 s7)) -∗ K ⟨⟩))
      ⊢ wp frame (wpE (defs₀ (F := F)) Variants.none c none) E (cc10__pool_kernel i arg1 harg1 arg2 harg2 arg3 harg3 arg4 harg4 arg5 harg5 arg6 harg6 arg7 harg7) K := by
  simp only [cc10__pool_kernel_eq_skeleton]; unfold cc10__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  subst hf0; subst hf1; subst hf2; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_run_names
    refine (read_whole_store_last _ _ hz10 _ _ _).trans ?_
    simp only [View.readAt_eq_ld, View.ld_unit_zero (S := S5000x1) hz10, View.ld_unit_zero (S := S5000x32) hz10, View.ld_unit_zero (S := S64x32) hz10]
  · iexists _; isplitr
    swap; · iexact H7
    ipureintro
    sl_unfold_run_names
    refine (read_whole_store_last _ _ hz10 _ _ _).trans ?_
    simp only [View.readAt_eq_ld, View.ld_unit_zero (S := S5000x1) hz10, View.ld_unit_zero (S := S64x1) hz10]

set_option maxHeartbeats 2000000 in

theorem poolRun_C (c : Dev nD) (E : Set ℕ) (i : grid10.Coords)
    (arg1 : Memref sig .tc .vmem S5000x32 .f32) (harg1 : arg1.IsWhole) (arg2 : Memref sig .tc .vmem S5000x1 .i32) (harg2 : arg2.IsWhole)
    (arg3 : Memref sig .tc .vmem S32x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x32 .f32) (harg6 : arg6.IsWhole)
    (arg7 : Memref sig .tc .vmem S64x1 .f32) (harg7 : arg7.IsWhole)
    (hc0 : ¬ cond10_0 i) (hc1 : cond10_1 i)
    (x0 : Vec F S5000x32 .f32) (x1 : Vec F S5000x1 .i32) (x2 : Vec F S32x10 .f32) (x3 : Vec F S1x10 .f32)
    (s6 : Vec F S64x32 .f32) (s7 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare s6 ∗ owns (c : Thread nD τ) arg7 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k10_pay6 (k10_pay4 x1 s6 x0) (k10_pay5 x1 s7) x2 x3)
            ∗ owns (c : Thread nD τ) arg6 fullShare (k10_pay4 x1 s6 x0) ∗ owns (c : Thread nD τ) arg7 fullShare (k10_pay5 x1 s7)) -∗ K ⟨⟩))
      ⊢ wp frame (wpE (defs₀ (F := F)) Variants.none c none) E (cc10__pool_kernel i arg1 harg1 arg2 harg2 arg3 harg3 arg4 harg4 arg5 harg5 arg6 harg6 arg7 harg7) K := by
  simp only [cc10__pool_kernel_eq_skeleton]; unfold cc10__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_whole_store_last _ _ hz10 _ _ _).trans ?_
    simp only [View.readAt_eq_ld, View.readCov_unit_zero (S := S64x32) _ hz10, View.readCov_unit_zero (S := S64x1) _ hz10, View.ld_unit_zero (S := S5000x1) hz10, View.ld_unit_zero (S := S5000x32) hz10, View.ld_unit_zero (S := S64x32) hz10, View.ld_unit_zero (S := S64x1) hz10, View.ld_unit_zero (S := S32x10) hz10, View.ld_unit_zero (S := S1x10) hz10]
  isplitl [H6]
  · iexists _; isplitr
    swap; · iexact H6
    ipureintro
    sl_unfold_run_names
    refine (read_whole_store_last _ _ hz10 _ _ _).trans ?_
    simp only [View.readAt_eq_ld, View.ld_unit_zero (S := S5000x1) hz10, View.ld_unit_zero (S := S5000x32) hz10, View.ld_unit_zero (S := S64x32) hz10]
  · iexists _; isplitr
    swap; · iexact H7
    ipureintro
    sl_unfold_run_names
    refine (read_whole_store_last _ _ hz10 _ _ _).trans ?_
    simp only [View.readAt_eq_ld, View.ld_unit_zero (S := S5000x1) hz10, View.ld_unit_zero (S := S64x1) hz10]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def accAt10 (c : Dev nD) : (n : ℕ) → n < cfg10.N → Vec F S64x32 .f32 × Vec F S64x1 .f32
  | 0, hn => (k10_pay4 (iblk10 V c 1 ⟨0, hn⟩) (k10_pay1 (F := F)) (iblk10 V c 0 ⟨0, hn⟩), k10_pay5 (iblk10 V c 1 ⟨0, hn⟩) (k10_pay2 (F := F)))
  | n + 1, hn => (k10_pay4 (iblk10 V c 1 ⟨n + 1, hn⟩) (accAt10 c n (Nat.lt_of_succ_lt hn)).1 (iblk10 V c 0 ⟨n + 1, hn⟩),
      k10_pay5 (iblk10 V c 1 ⟨n + 1, hn⟩) (accAt10 c n (Nat.lt_of_succ_lt hn)).2)

theorem accAt10_zero (c : Dev nD) (hn : 0 < cfg10.N) :
    accAt10 V c 0 hn = (k10_pay4 (iblk10 V c 1 ⟨0, hn⟩) (k10_pay1 (F := F)) (iblk10 V c 0 ⟨0, hn⟩), k10_pay5 (iblk10 V c 1 ⟨0, hn⟩) (k10_pay2 (F := F))) := rfl
theorem accAt10_succ (c : Dev nD) (n : ℕ) (hn : n + 1 < cfg10.N) :
    accAt10 V c (n + 1) hn = (k10_pay4 (iblk10 V c 1 ⟨n + 1, hn⟩) (accAt10 V c n (Nat.lt_of_succ_lt hn)).1 (iblk10 V c 0 ⟨n + 1, hn⟩),
      k10_pay5 (iblk10 V c 1 ⟨n + 1, hn⟩) (accAt10 V c n (Nat.lt_of_succ_lt hn)).2) := rfl

theorem accAt10_first (c : Dev nD) (t : Fin cfg10.N) (h : t.val = 0) :
    accAt10 V c t.val t.isLt = (k10_pay4 (iblk10 V c 1 t) (k10_pay1 (F := F)) (iblk10 V c 0 t), k10_pay5 (iblk10 V c 1 t) (k10_pay2 (F := F))) := by
  obtain ⟨n, hn⟩ := t
  cases n with
  | zero => rfl
  | succ n => exact absurd h (Nat.succ_ne_zero n)

theorem accAt10_next (c : Dev nD) (t : Fin cfg10.N) (h : t.val ≠ 0) :
    accAt10 V c t.val t.isLt = (k10_pay4 (iblk10 V c 1 t) (accAt10 V c (t.val - 1) (Nat.lt_of_le_of_lt (Nat.sub_le _ _) t.isLt)).1 (iblk10 V c 0 t),
      k10_pay5 (iblk10 V c 1 t) (accAt10 V c (t.val - 1) (Nat.lt_of_le_of_lt (Nat.sub_le _ _) t.isLt)).2) := by
  obtain ⟨n, hn⟩ := t
  cases n with
  | zero => exact absurd rfl h
  | succ n => rfl

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

abbrev scr10_0 : Memref sig .tc .vmem S64x32 .f32 := Memref.whole cc10_scratch0
abbrev scr10_1 : Memref sig .tc .vmem S64x1 .f32 := Memref.whole cc10_scratch1

theorem PhiA10_eq (c : Dev nD) :
    (Pipeline.ΦA spec10 c : sProp 𝕄)
      = iprop(iprop(iprop((∃ d, owns (c : Thread nD τ) scr10_0 fullShare d) ∗ (∃ d, owns (c : Thread nD τ) scr10_1 fullShare d))
          ∗ Pipeline.scopedRestBut spec10 c [cc10_scratch0, cc10_scratch1]) ∗ (∃ r, prngReg c r)) := by
  unfold Pipeline.ΦA; rw [scopedRest10_split]; simp only [scr10_0, scr10_1, owns_whole]; rfl

def Phi10 (c : Dev nD) : (n : ℕ) → n ≤ cfg10.N → sProp 𝕄
  | 0, _ => Pipeline.ΦA spec10 c
  | n + 1, hn => iprop(owns (c : Thread nD τ) scr10_0 fullShare (accAt10 V c n hn).1 ∗ owns (c : Thread nD τ) scr10_1 fullShare (accAt10 V c n hn).2
      ∗ Pipeline.scopedRestBut spec10 c [cc10_scratch0, cc10_scratch1] ∗ ∃ r, prngReg c r)

theorem Phi10_first (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(owns (c : Thread nD τ) scr10_0 fullShare (accAt10 V c n hn).1 ∗ owns (c : Thread nD τ) scr10_1 fullShare (accAt10 V c n hn).2
      ∗ Pipeline.scopedRestBut spec10 c [cc10_scratch0, cc10_scratch1] ∗ ∃ r, prngReg c r) := rfl

theorem Phi10_pos (c : Dev nD) (n : ℕ) (h : n ≤ cfg10.N) (hz : n ≠ 0) :
    Phi10 V c n h = iprop(owns (c : Thread nD τ) scr10_0 fullShare (accAt10 V c (n - 1) (by omega)).1 ∗ owns (c : Thread nD τ) scr10_1 fullShare (accAt10 V c (n - 1) (by omega)).2
      ∗ Pipeline.scopedRestBut spec10 c [cc10_scratch0, cc10_scratch1] ∗ ∃ r, prngReg c r) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => k10_pay6 (accAt10 V c t.val t.isLt).1 (accAt10 V c t.val t.isLt).2 (iblk10 V c 2 t) (iblk10 V c 3 t)
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi10_zero (c : Dev nD) : (dat10 V c).Φ 0 = Pipeline.ΦA spec10 c := rfl
theorem owed10 (c : Dev nD) (t : Fin (cfg10.N + 1)) : (dat10 V c).owed t = 0 := rfl
theorem share10 (c : Dev nD) (w : Fin cfg10.W) : (dat10 V c).q w = fullShare := rfl
theorem recorded10 (c : Dev nD) : (dat10 V c).recorded 0 = Set.univ := rfl

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = k10_pay6 (accAt10 V c t.val t.isLt).1 (accAt10 V c t.val t.isLt).2 (iblk10 V c 2 t) (iblk10 V c 3 t) := by dsimp only [dat10]

theorem after10_4_last (c : Dev nD) (t : Fin cfg10.N) (ht : t.val = 19) :
    (dat10 V c).after 4 t = k10_pay6 (accAt10 V c t.val t.isLt).1 (accAt10 V c t.val t.isLt).2 (iblk10 V c 2 t) (iblk10 V c 3 t) :=
  after10_4 V c t

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

theorem live10_0 : ∀ t : Fin cfg10.N, cfg10.idle 0 (grid10.coords t) = false := fun _ => rfl
theorem live10_1 : ∀ t : Fin cfg10.N, cfg10.idle 1 (grid10.coords t) = false := fun _ => rfl
theorem live10_2 : ∀ t : Fin cfg10.N, cfg10.idle 2 (grid10.coords t) = false := fun _ => rfl
theorem live10_3 : ∀ t : Fin cfg10.N, cfg10.idle 3 (grid10.coords t) = false := fun _ => rfl

theorem idle10_4 : ∀ t : Fin cfg10.N, ¬ cond10_1 (grid10.coords t) → cfg10.idle 4 (grid10.coords t) = true := by decide +kernel
theorem noFlush10_4 : ∀ t : Fin cfg10.N, ¬ cond10_1 (grid10.coords t) → (cfg10.win 4).flush t = false := by decide +kernel
theorem live10_4 : ∀ t : Fin cfg10.N, cond10_1 (grid10.coords t) → cfg10.idle 4 (grid10.coords t) = false := by decide +kernel

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 4000000 in

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl]
  rw [show (dat10 V c).Φ t.succ = Phi10 V c (t.val + 1) t.isLt from rfl, Phi10_succ]
  rw [show (dat10 V c).leavesExact 0 t = owns (c : Thread nD τ) (st10_0 t) fullShare ((dat10 V c).after 0 t) from by
    unfold Dat.leavesExact; rw [live10_0 t], after10_0]
  rw [show (dat10 V c).leavesExact 1 t = owns (c : Thread nD τ) (st10_1 t) fullShare ((dat10 V c).after 1 t) from by
    unfold Dat.leavesExact; rw [live10_1 t], after10_1]
  rw [show (dat10 V c).leavesExact 2 t = owns (c : Thread nD τ) (st10_2 t) fullShare ((dat10 V c).after 2 t) from by
    unfold Dat.leavesExact; rw [live10_2 t], after10_2]
  rw [show (dat10 V c).leavesExact 3 t = owns (c : Thread nD τ) (st10_3 t) fullShare ((dat10 V c).after 3 t) from by
    unfold Dat.leavesExact; rw [live10_3 t], after10_3]
  have hN : t.val < 20 := lt_of_lt_of_eq t.isLt (show cfg10.N = 20 from N_10)
  by_cases h0 : t.val = 0
  · have hc0 : cond10_0 (grid10.coords t) := (hcond10_0 t).mpr h0
    have hc1 : ¬ cond10_1 (grid10.coords t) := fun h => by have h19 := (hcond10_1 t).mp h; omega
    rw [Dat.leavesExact_idle (dat10 V c) 4 t (idle10_4 t hc1) (noFlush10_4 t hc1)]
    rw [Phi10_castSucc V c t, Phi10_first V c _ _ h0, PhiA10_eq, accAt10_first V c t h0]
    dsimp only
    iintro ⟨⟨⟨⟨H6, H7⟩, HR⟩, Hg⟩, Ho, ⟨%d0, H0⟩, ⟨%d1, H1⟩, ⟨%d2, H2⟩, ⟨%d3, H3⟩, ⟨%d4, H4⟩⟩
    iapply (poolRun_A c Set.univ (grid10.coords t) _ _ _ _ _ _ _ _ _ _ _ _ _ _ hc0 hc1
      (iblk10 V c 0 t) (iblk10 V c 1 t) (iblk10 V c 2 t) (iblk10 V c 3 t) ((dat10 V c).before 4 t d4) _)
    iframe H0 H1 H2 H3 H4 H6 H7
    iintro ⟨H0, H1, H2, H3, H4, H6, H7⟩
    iframe
    iexists _; iexact H4
  · rw [Phi10_castSucc V c t, Phi10_pos V c _ _ h0, accAt10_next V c t h0]
    dsimp only
    have hc0 : ¬ cond10_0 (grid10.coords t) := fun h => h0 ((hcond10_0 t).mp h)
    by_cases h19 : t.val = 19
    · have hc1 : cond10_1 (grid10.coords t) := (hcond10_1 t).mpr h19
      rw [show (dat10 V c).leavesExact 4 t = owns (c : Thread nD τ) (st10_4 t) fullShare ((dat10 V c).after 4 t) from by
        unfold Dat.leavesExact; rw [live10_4 t hc1], after10_4, accAt10_next V c t h0]
      dsimp only
      iintro ⟨⟨H6, H7, HR, Hg⟩, Ho, ⟨%d0, H0⟩, ⟨%d1, H1⟩, ⟨%d2, H2⟩, ⟨%d3, H3⟩, ⟨%d4, H4⟩⟩
      iapply (poolRun_C c Set.univ (grid10.coords t) _ _ _ _ _ _ _ _ _ _ _ _ _ _ hc0 hc1
        (iblk10 V c 0 t) (iblk10 V c 1 t) (iblk10 V c 2 t) (iblk10 V c 3 t)
        (accAt10 V c (t.val - 1) (Nat.lt_of_le_of_lt (Nat.sub_le _ _) t.isLt)).1
        (accAt10 V c (t.val - 1) (Nat.lt_of_le_of_lt (Nat.sub_le _ _) t.isLt)).2 _)
      iframe H0 H1 H2 H3 H6 H7
      isplitl [H4]; · iexists _; iexact H4
      iintro ⟨H0, H1, H2, H3, H4, H6, H7⟩
      iframe
    · have hc1 : ¬ cond10_1 (grid10.coords t) := fun h => h19 ((hcond10_1 t).mp h)
      rw [Dat.leavesExact_idle (dat10 V c) 4 t (idle10_4 t hc1) (noFlush10_4 t hc1)]
      iintro ⟨⟨H6, H7, HR, Hg⟩, Ho, ⟨%d0, H0⟩, ⟨%d1, H1⟩, ⟨%d2, H2⟩, ⟨%d3, H3⟩, ⟨%d4, H4⟩⟩
      iapply (poolRun_B c Set.univ (grid10.coords t) _ _ _ _ _ _ _ _ _ _ _ _ _ _ hc0 hc1
        (iblk10 V c 0 t) (iblk10 V c 1 t) (iblk10 V c 2 t) (iblk10 V c 3 t) ((dat10 V c).before 4 t d4)
        (accAt10 V c (t.val - 1) (Nat.lt_of_le_of_lt (Nat.sub_le _ _) t.isLt)).1
        (accAt10 V c (t.val - 1) (Nat.lt_of_le_of_lt (Nat.sub_le _ _) t.isLt)).2 _)
      iframe H0 H1 H2 H3 H4 H6 H7
      iintro ⟨H0, H1, H2, H3, H4, H6, H7⟩
      iframe
      iexists _; iexact H4

theorem body_obligation10 (c : Dev nD) : BodyObligation (dat10 (F := F) V c) (defs₀ (F := F)) Variants.none () Set.univ := fun t => by
  rw [bigSep_W10, bigSep_W10]
  exact sound_body10 V c t

theorem hout10 (c : Dev nD) : (dat10 V c).Φ (Fin.last cfg10.N) ⊢ (Pipeline.ΦA spec10 c : sProp 𝕄) := by
  have hN : cfg10.N ≠ 0 := by rw [show cfg10.N = 20 from N_10]; decide
  rw [show (dat10 V c).Φ (Fin.last cfg10.N) = Phi10 V c cfg10.N (Nat.le_refl _) from rfl, Phi10_pos V c _ _ hN, PhiA10_eq]
  iintro ⟨H6, H7, HR, Hg⟩
  isplitl [H6 H7 HR]
  · isplitl [H6 H7]
    · isplitl [H6]
      · iexists _; iexact H6
      iexists _; iexact H7
    iexact HR
  iexact Hg

end Cert.Kernel.Gen

end
-- ==== Proof.LibRegionKeep.lean ====
import Idealize.ShloMosaic.Lib.Pipeline.FrameSuffix
import Idealize.ShloMosaic.Lib.Pipeline.Cells

noncomputable section

namespace Cert.LibRegion

open Idealize.ShloMosaic Idealize.ShloMosaic.TcCoe Idealize.SL.RA
open Idealize.ShloMosaic.Pipeline (Dat Cfg)

variable {nD : Nat} {τ : Topo} {sig : RefSig} {Val : EltTy → Type} {Λ₀ : Idealize.SL.Sem.Labels}
variable {Ix : Type} [DecidableEq Ix] {Name : Type} [DecidableEq Name] {U : Type} [URA U] {Lvl : Type}

/-- An input window's array ends as it began, so a region leaves every reference but its one output array as entered. -/
theorem withArrays_keep {cfg : Cfg sig Λ₀} {c : Dev nD} (dat : Dat τ Val Ix Name U Lvl cfg c)
    (hinj : Function.Injective (Pipeline.arrRef cfg.spec)) (V : Valuation τ sig Val)
    (hA : ∀ w, dat.A w = V (Proc.devRef .tc (Pipeline.arrRef cfg.spec w))) (out : Ref sig .tc)
    (hin : ∀ w, Pipeline.arrRef cfg.spec w ≠ out → (cfg.win w).isOut = false) (r : Ref sig .tc) (h : r ≠ out) :
    Pipeline.withArrays cfg.spec c V (fun w => dat.arrAt w cfg.N) (Proc.devRef .tc r) = V (Proc.devRef .tc r) := by
  by_cases hr : ∃ w, Pipeline.arrRef cfg.spec w = r
  · obtain ⟨w, rfl⟩ := hr
    exact (Pipeline.withArrays_arr cfg.spec hinj c V _ w).trans ((dat.arrAt_in w (hin w h) _).trans (hA w))
  · exact Pipeline.withArrays_of_ne cfg.spec c V _ r fun w e => hr ⟨w, e⟩

end Cert.LibRegion

end
-- ==== Proof.K.Run1.lean ====
import proofs.«419567_j13065290514766_1_alg».proof.Proof.K.Mm0
import proofs.«419567_j13065290514766_1_alg».proof.Proof.K.Br1
import proofs.«419567_j13065290514766_1_alg».proof.Proof.K.Mm2
import proofs.«419567_j13065290514766_1_alg».proof.Proof.K.Br3
import proofs.«419567_j13065290514766_1_alg».proof.Proof.K.Mm4
import proofs.«419567_j13065290514766_1_alg».proof.Proof.K.Br5
import proofs.«419567_j13065290514766_1_alg».proof.Proof.K.Mm6
import proofs.«419567_j13065290514766_1_alg».proof.Proof.K.Br7
import proofs.«419567_j13065290514766_1_alg».proof.Proof.K.Mm8
import proofs.«419567_j13065290514766_1_alg».proof.Proof.K.Br9
import proofs.«419567_j13065290514766_1_alg».proof.Proof.K.Pool
import proofs.«419567_j13065290514766_1_alg».proof.Proof.LibRegionKeep

noncomputable section

namespace Cert.Kernel.Gen

open Idealize.ShloMosaic Idealize.ShloMosaic.TcCoe

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
abbrev V4 : (c : Dev nD) → (b : Ref sig .tc) → Buf (Elt F) ((c : Thread nD τ).loc b) := fun c b => W4 m ρ c b
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
abbrev V6 : (c : Dev nD) → (b : Ref sig .tc) → Buf (Elt F) ((c : Thread nD τ).loc b) := fun c b => W6 m ρ c b
def W7 (c : Dev nD) : Valuation τ sig (Elt F) :=
  Pipeline.withArrays spec2 c (W6 m ρ c) fun w => (dat2 (V6 m ρ) c).arrAt w cfg2.N
abbrev V7 : (c : Dev nD) → (b : Ref sig .tc) → Buf (Elt F) ((c : Thread nD τ).loc b) := fun c b => W7 m ρ c b
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec3 c (W8 m ρ c) fun w => (dat3 (V8 m ρ) c).arrAt w cfg3.N
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
abbrev V10 : (c : Dev nD) → (b : Ref sig .tc) → Buf (Elt F) ((c : Thread nD τ).loc b) := fun c b => W10 m ρ c b
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11 m ρ) c).arrAt w cfg5.N
abbrev V12 : (c : Dev nD) → (b : Ref sig .tc) → Buf (Elt F) ((c : Thread nD τ).loc b) := fun c b => W12 m ρ c b
def W13 (c : Dev nD) : Valuation τ sig (Elt F) :=
  Pipeline.withArrays spec6 c (W12 m ρ c) fun w => (dat6 (V12 m ρ) c).arrAt w cfg6.N
abbrev V13 : (c : Dev nD) → (b : Ref sig .tc) → Buf (Elt F) ((c : Thread nD τ).loc b) := fun c b => W13 m ρ c b
abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b
def W15 (c : Dev nD) : Valuation τ sig (Elt F) :=
  Pipeline.withArrays spec7 c (W14 m ρ c) fun w => (dat7 (V14 m ρ) c).arrAt w cfg7.N
abbrev V15 : (c : Dev nD) → (b : Ref sig .tc) → Buf (Elt F) ((c : Thread nD τ).loc b) := fun c b => W15 m ρ c b
def W16 (c : Dev nD) : Valuation τ sig (Elt F) :=
  Pipeline.withArrays spec8 c (W15 m ρ c) fun w => (dat8 (V15 m ρ) c).arrAt w cfg8.N
abbrev V16 : (c : Dev nD) → (b : Ref sig .tc) → Buf (Elt F) ((c : Thread nD τ).loc b) := fun c b => W16 m ρ c b
abbrev W17 : Dev nD → Valuation τ sig (Elt F) := fun c => StableHlo.after hostOps9 (W16 m ρ c)
abbrev V17 : (c : Dev nD) → (b : Ref sig .tc) → Buf (Elt F) ((c : Thread nD τ).loc b) := fun c b => W17 m ρ c b
def W18 (c : Dev nD) : Valuation τ sig (Elt F) :=
  Pipeline.withArrays spec9 c (W17 m ρ c) fun w => (dat9 (V17 m ρ) c).arrAt w cfg9.N
abbrev V18 : (c : Dev nD) → (b : Ref sig .tc) → Buf (Elt F) ((c : Thread nD τ).loc b) := fun c b => W18 m ρ c b
abbrev W19 : Dev nD → Valuation τ sig (Elt F) := fun c => StableHlo.after hostOps10 (W18 m ρ c)
abbrev V19 : (c : Dev nD) → (b : Ref sig .tc) → Buf (Elt F) ((c : Thread nD τ).loc b) := fun c b => W19 m ρ c b
def W20 (c : Dev nD) : Valuation τ sig (Elt F) :=
  Pipeline.withArrays spec10 c (W19 m ρ c) fun w => (dat10 (V19 m ρ) c).arrAt w cfg10.N
abbrev V20 : (c : Dev nD) → (b : Ref sig .tc) → Buf (Elt F) ((c : Thread nD τ).loc b) := fun c b => W20 m ρ c b

local macro "writes_in_list" : tactic => `(tactic|
  (simp only [List.Forall]
   repeat' apply And.intro
   all_goals
     simp only [StableHlo.nullary_writes, StableHlo.unary_writes, StableHlo.binary_writes, StableHlo.ternary_writes,
       StableHlo.quaternary_writes, StableHlo.reshape_writes, StableHlo.binaryIndexed_writes, StableHlo.unaryIndexed_writes,
       StableHlo.nary_writes, Finset.singleton_subset_iff, List.mem_toFinset]
     exact List.mem_map_of_mem (by decide)))

abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem W1_of (c : Dev nD) (r : Ref sig .tc) (h : r ∉ hostOps0_W) : W1 m ρ c (Proc.devRef .tc r) = W0 m ρ c (Proc.devRef .tc r) :=
  StableHlo.after_of_writes_sub hostOps0 _ (by writes_in_list) h
abbrev hostOps0_1_W : List (Ref sig .tc) := [main_call0_v0, main_call0_v1, main_v14]
theorem W2_of (c : Dev nD) (r : Ref sig .tc) (h : r ∉ hostOps0_1_W) : W2 m ρ c (Proc.devRef .tc r) = W1 m ρ c (Proc.devRef .tc r) :=
  StableHlo.after_of_writes_sub hostOps0_1 _ (by writes_in_list) h
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30]
theorem W3_of (c : Dev nD) (r : Ref sig .tc) (h : r ∉ hostOps0_2_W) : W3 m ρ c (Proc.devRef .tc r) = W2 m ρ c (Proc.devRef .tc r) :=
  StableHlo.after_of_writes_sub hostOps0_2 _ (by writes_in_list) h
abbrev hostOps1_W : List (Ref sig .tc) := [main_c_6, main_v32, main_v33, main_c_7, main_v34, main_v35, main_v36, main_v37, main_v38, main_v39, main_v40, main_cst_8, main_v41, main_v42, main_v43, main_v44]
theorem W5_of (c : Dev nD) (r : Ref sig .tc) (h : r ∉ hostOps1_W) : W5 m ρ c (Proc.devRef .tc r) = W4 m ρ c (Proc.devRef .tc r) :=
  StableHlo.after_of_writes_sub hostOps1 _ (by writes_in_list) h
abbrev hostOps3_W : List (Ref sig .tc) := [main_c_9, main_v47, main_v48, main_c_10, main_v49, main_v50, main_v51, main_v52, main_v53, main_v54, main_v55, main_cst_11, main_v56, main_v57, main_v58, main_v59]
theorem W8_of (c : Dev nD) (r : Ref sig .tc) (h : r ∉ hostOps3_W) : W8 m ρ c (Proc.devRef .tc r) = W7 m ρ c (Proc.devRef .tc r) :=
  StableHlo.after_of_writes_sub hostOps3 _ (by writes_in_list) h
abbrev hostOps5_W : List (Ref sig .tc) := [main_c_12, main_v62, main_v63, main_c_13, main_v64, main_v65, main_v66, main_v67, main_v68, main_v69, main_v70, main_cst_14, main_v71, main_v72, main_v73, main_v74]
theorem W11_of (c : Dev nD) (r : Ref sig .tc) (h : r ∉ hostOps5_W) : W11 m ρ c (Proc.devRef .tc r) = W10 m ρ c (Proc.devRef .tc r) :=
  StableHlo.after_of_writes_sub hostOps5 _ (by writes_in_list) h
abbrev hostOps7_W : List (Ref sig .tc) := [main_c_15, main_v77, main_v78, main_c_16, main_v79, main_v80, main_v81, main_v82, main_v83, main_v84, main_v85, main_cst_17, main_v86, main_v87, main_v88, main_v89]
theorem W14_of (c : Dev nD) (r : Ref sig .tc) (h : r ∉ hostOps7_W) : W14 m ρ c (Proc.devRef .tc r) = W13 m ρ c (Proc.devRef .tc r) :=
  StableHlo.after_of_writes_sub hostOps7 _ (by writes_in_list) h
abbrev hostOps9_W : List (Ref sig .tc) := [main_c_18, main_v92, main_v93, main_c_19, main_v94, main_v95, main_v96, main_v97, main_v98, main_v99, main_v100, main_cst_20, main_v101, main_v102, main_v103, main_v104]
theorem W17_of (c : Dev nD) (r : Ref sig .tc) (h : r ∉ hostOps9_W) : W17 m ρ c (Proc.devRef .tc r) = W16 m ρ c (Proc.devRef .tc r) :=
  StableHlo.after_of_writes_sub hostOps9 _ (by writes_in_list) h
abbrev hostOps10_W : List (Ref sig .tc) := [main_v106, main_v107]
theorem W19_of (c : Dev nD) (r : Ref sig .tc) (h : r ∉ hostOps10_W) : W19 m ρ c (Proc.devRef .tc r) = W18 m ρ c (Proc.devRef .tc r) :=
  StableHlo.after_of_writes_sub hostOps10 _ (by writes_in_list) h

theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_keep (c : Dev nD) (r : Ref sig .tc) (h : r ≠ main_v31) :
    W4 m ρ c (Proc.devRef .tc r) = W3 m ρ c (Proc.devRef .tc r) :=
  LibRegion.withArrays_keep (dat0 (V3 m ρ) c) launch0.win.arr_inj _ (A_eq0 (V3 m ρ) c) main_v31 (by decide) r h
theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_keep (c : Dev nD) (r : Ref sig .tc) (h : r ≠ main_v45) :
    W6 m ρ c (Proc.devRef .tc r) = W5 m ρ c (Proc.devRef .tc r) :=
  LibRegion.withArrays_keep (dat1 (V5 m ρ) c) launch1.win.arr_inj _ (A_eq1 (V5 m ρ) c) main_v45 (by decide) r h
theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_keep (c : Dev nD) (r : Ref sig .tc) (h : r ≠ main_v46) :
    W7 m ρ c (Proc.devRef .tc r) = W6 m ρ c (Proc.devRef .tc r) :=
  LibRegion.withArrays_keep (dat2 (V6 m ρ) c) launch2.win.arr_inj _ (A_eq2 (V6 m ρ) c) main_v46 (by decide) r h
theorem W9_arr (c : Dev nD) (w : Fin cfg3.W) :
    W9 m ρ c (Proc.devRef .tc (Pipeline.arrRef spec3 w)) = (dat3 (V8 m ρ) c).arrAt w cfg3.N :=
  Pipeline.withArrays_arr spec3 launch3.win.arr_inj c _ _ w
theorem W9_keep (c : Dev nD) (r : Ref sig .tc) (h : r ≠ main_v60) :
    W9 m ρ c (Proc.devRef .tc r) = W8 m ρ c (Proc.devRef .tc r) :=
  LibRegion.withArrays_keep (dat3 (V8 m ρ) c) launch3.win.arr_inj _ (A_eq3 (V8 m ρ) c) main_v60 (by decide) r h
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_keep (c : Dev nD) (r : Ref sig .tc) (h : r ≠ main_v61) :
    W10 m ρ c (Proc.devRef .tc r) = W9 m ρ c (Proc.devRef .tc r) :=
  LibRegion.withArrays_keep (dat4 (V9 m ρ) c) launch4.win.arr_inj _ (A_eq4 (V9 m ρ) c) main_v61 (by decide) r h
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_keep (c : Dev nD) (r : Ref sig .tc) (h : r ≠ main_v75) :
    W12 m ρ c (Proc.devRef .tc r) = W11 m ρ c (Proc.devRef .tc r) :=
  LibRegion.withArrays_keep (dat5 (V11 m ρ) c) launch5.win.arr_inj _ (A_eq5 (V11 m ρ) c) main_v75 (by decide) r h
theorem W13_arr (c : Dev nD) (w : Fin cfg6.W) :
    W13 m ρ c (Proc.devRef .tc (Pipeline.arrRef spec6 w)) = (dat6 (V12 m ρ) c).arrAt w cfg6.N :=
  Pipeline.withArrays_arr spec6 launch6.win.arr_inj c _ _ w
theorem W13_keep (c : Dev nD) (r : Ref sig .tc) (h : r ≠ main_v76) :
    W13 m ρ c (Proc.devRef .tc r) = W12 m ρ c (Proc.devRef .tc r) :=
  LibRegion.withArrays_keep (dat6 (V12 m ρ) c) launch6.win.arr_inj _ (A_eq6 (V12 m ρ) c) main_v76 (by decide) r h
theorem W15_arr (c : Dev nD) (w : Fin cfg7.W) :
    W15 m ρ c (Proc.devRef .tc (Pipeline.arrRef spec7 w)) = (dat7 (V14 m ρ) c).arrAt w cfg7.N :=
  Pipeline.withArrays_arr spec7 launch7.win.arr_inj c _ _ w
theorem W15_keep (c : Dev nD) (r : Ref sig .tc) (h : r ≠ main_v90) :
    W15 m ρ c (Proc.devRef .tc r) = W14 m ρ c (Proc.devRef .tc r) :=
  LibRegion.withArrays_keep (dat7 (V14 m ρ) c) launch7.win.arr_inj _ (A_eq7 (V14 m ρ) c) main_v90 (by decide) r h
theorem W16_arr (c : Dev nD) (w : Fin cfg8.W) :
    W16 m ρ c (Proc.devRef .tc (Pipeline.arrRef spec8 w)) = (dat8 (V15 m ρ) c).arrAt w cfg8.N :=
  Pipeline.withArrays_arr spec8 launch8.win.arr_inj c _ _ w
theorem W16_keep (c : Dev nD) (r : Ref sig .tc) (h : r ≠ main_v91) :
    W16 m ρ c (Proc.devRef .tc r) = W15 m ρ c (Proc.devRef .tc r) :=
  LibRegion.withArrays_keep (dat8 (V15 m ρ) c) launch8.win.arr_inj _ (A_eq8 (V15 m ρ) c) main_v91 (by decide) r h
theorem W18_arr (c : Dev nD) (w : Fin cfg9.W) :
    W18 m ρ c (Proc.devRef .tc (Pipeline.arrRef spec9 w)) = (dat9 (V17 m ρ) c).arrAt w cfg9.N :=
  Pipeline.withArrays_arr spec9 launch9.win.arr_inj c _ _ w
theorem W18_keep (c : Dev nD) (r : Ref sig .tc) (h : r ≠ main_v105) :
    W18 m ρ c (Proc.devRef .tc r) = W17 m ρ c (Proc.devRef .tc r) :=
  LibRegion.withArrays_keep (dat9 (V17 m ρ) c) launch9.win.arr_inj _ (A_eq9 (V17 m ρ) c) main_v105 (by decide) r h
theorem W20_arr (c : Dev nD) (w : Fin cfg10.W) :
    W20 m ρ c (Proc.devRef .tc (Pipeline.arrRef spec10 w)) = (dat10 (V19 m ρ) c).arrAt w cfg10.N :=
  Pipeline.withArrays_arr spec10 launch10.win.arr_inj c _ _ w
theorem W20_keep (c : Dev nD) (r : Ref sig .tc) (h : r ≠ main_v108) :
    W20 m ρ c (Proc.devRef .tc r) = W19 m ρ c (Proc.devRef .tc r) :=
  LibRegion.withArrays_keep (dat10 (V19 m ρ) c) launch10.win.arr_inj _ (A_eq10 (V19 m ρ) c) main_v108 (by decide) r h

theorem W20_out (c : Dev nD) : W20 m ρ c (Proc.devRef .tc main_v108) = (dat10 (V19 m ρ) c).arrAt 4 cfg10.N :=
  W20_arr m ρ c 4

/-- No item of the program writes `r`: it is no stretch's result and no region's output array. -/
abbrev Untouched (r : Ref sig .tc) : Prop :=
  r ∉ hostOps0_W ∧ r ∉ hostOps0_1_W ∧ r ∉ hostOps0_2_W ∧ r ≠ main_v31 ∧ r ∉ hostOps1_W ∧ r ≠ main_v45 ∧ r ≠ main_v46
    ∧ r ∉ hostOps3_W ∧ r ≠ main_v60 ∧ r ≠ main_v61 ∧ r ∉ hostOps5_W ∧ r ≠ main_v75 ∧ r ≠ main_v76 ∧ r ∉ hostOps7_W
    ∧ r ≠ main_v90 ∧ r ≠ main_v91 ∧ r ∉ hostOps9_W ∧ r ≠ main_v105 ∧ r ∉ hostOps10_W ∧ r ≠ main_v108

/-- A reference no item writes holds at the end what the launch memory held: the twenty steps composed. -/
theorem W20_launch (c : Dev nD) (r : Ref sig .tc) (h : Untouched r) :
    W20 m ρ c (Proc.devRef .tc r) = m ((c : Thread nD τ).loc r) := by
  obtain ⟨h1, h2, h3, h4, h5, h6, h7, h8, h9, h10, h11, h12, h13, h14, h15, h16, h17, h18, h19, h20⟩ := h
  rw [W20_keep m ρ c r h20, W19_of m ρ c r h19, W18_keep m ρ c r h18, W17_of m ρ c r h17, W16_keep m ρ c r h16,
    W15_keep m ρ c r h15, W14_of m ρ c r h14, W13_keep m ρ c r h13, W12_keep m ρ c r h12, W11_of m ρ c r h11,
    W10_keep m ρ c r h10, W9_keep m ρ c r h9, W8_of m ρ c r h8, W7_keep m ρ c r h7, W6_keep m ρ c r h6,
    W5_of m ρ c r h5, W4_keep m ρ c r h4, W3_of m ρ c r h3, W2_of m ρ c r h2, W1_of m ρ c r h1]

end Cert.Kernel.Gen

end
-- ==== Proof.LibRegionSeg.lean ====
import Idealize.ShloMosaic.Lib.Pipeline.Regions
import Idealize.ShloMosaic.Lib.Pipeline.FrameSuffix
import Idealize.ShloMosaic.Lib.Pipeline.Launch
import Idealize.ShloMosaic.Lib.Pipeline.RegionsLoop

noncomputable section

namespace Cert.LibRegion

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg)

variable {nD : Nat} {τ : Topo} {sig : RefSig} {Val : EltTy → Type} {Λ₀ : Idealize.SL.Sem.Labels} {P : Type} [Fintype P]
variable {U : Type} [URA U]

local notation "𝕄" => MT nD τ sig Unit Val ℕ U ℕ

/-- What a core holds beside its unscoped buffers between two items. -/
abbrev rest (c : Dev nD) : sProp 𝕄 := iprop((∃ r, prngReg c r) ∗ ∃ W, owes (c : Thread nD τ) (0 : CellTallies nD τ sig Unit) W)

variable (cfgs : P → Cfg sig Λ₀)

/-- The regions' configurations as one family, and the one parameter it admits. -/
abbrev pcs : P → PCfg sig Λ₀ Val := fun p => (cfgs p).toPCfg
abbrev adm : (p : P) → (pcs (Val := Val) cfgs p).Adm := fun p => (cfgs p).toPCfg_adm

/-- The invariant of a region that carries nothing between grid points. -/
abbrev plainΦ (p : P) (c : Dev nD) : sProp 𝕄 := Pipeline.ΦA (cfgs p).spec c

variable (pdats : (p : P) → (c : Dev nD) → Dat τ Val Unit ℕ U ℕ (cfgs p) c)
  (defs₀ : Defs nD τ sig Val Λ₀)

/-- The contents a region entered at `Win` leaves: its arrays at their final contents, every other buffer as entered. -/
abbrev exitVal (p : P) (Win : Dev nD → Valuation τ sig Val) (c : Dev nD) : Valuation τ sig Val :=
  Pipeline.withArrays (cfgs p).spec c (Win c)
    fun w => (pdats p c).arrAt w (cfgs p).N

set_option backward.isDefEq.respectTransparency.types false in
/-- A region as a segment between the held contents `Win` and `exitVal`, for proof data whose arrays are read off `Win`. -/
def regionSeg (p : P) (launch : Pipeline.LaunchFacts (nD := nD) (τ := τ) cfgs p) (Win : Dev nD → Valuation τ sig Val)
    (hbody : ∀ c, Pipeline.BodyObligationLoose (pdats p c) defs₀ .none () Set.univ)
    (hA : ∀ c w, (pdats p c).A w = Win c (Proc.devRef .tc (Pipeline.arrRef (cfgs p).spec w)))
    (howed : ∀ c t, (pdats p c).owed t = 0 := by exact fun _ _ => rfl)
    (hrec : ∀ c, (pdats p c).recorded 0 = Set.univ := by exact fun _ => rfl)
    (hq : ∀ c w, (pdats p c).q w = fullShare := by exact fun _ _ => rfl)
    (hΦ0 : ∀ c, (pdats p c).Φ 0 = plainΦ cfgs p c := by exact fun _ => rfl)
    (hΦN : ∀ c, (pdats p c).Φ (Fin.last (cfgs p).N) ⊢ plainΦ (U := U) cfgs p c := by
      exact fun _ => .rfl) :
    Pipeline.RegionSeg (pcs cfgs) (adm cfgs) pdats () defs₀ .none (fun _ => ∅) (fun _ _ => 0) p where
  win := launch.win.to₀
  block_pos := launch.block_pos
  stage_whole := launch.stage_whole
  K := PEmpty
  osem k := k.elim
  ho := Pipeline.OwnSemFacts.none _
  hbody := hbody
  hwaits := Pipeline.hwaits_of_owed_zero _ _ _ _ _ _ p howed
  pre c := iprop(StableHlo.held (c : Thread nD τ) (Pipeline.ucRefs τ sig) (Win c) ∗ rest c)
  post c := iprop(StableHlo.held (c : Thread nD τ) (Pipeline.ucRefs τ sig) (exitVal cfgs pdats p Win c) ∗ rest c)
  X c := iprop(∃ r, prngReg c r)
  Y c := iprop(∃ r, prngReg c r)
  Z c := Pipeline.unscopedRest (Ix := Unit) (Name := ℕ) (U := U) (Lvl := ℕ) (cfgs p).spec c (fun b => Win c b)
  hentry c := by
    rw [Pipeline.ownSems0_none]
    have hsplit := Pipeline.arrays_of_unscopedBufs (p := p) (pcs cfgs) (adm cfgs) pdats launch.win launch.arr_whole c
      ((pdats p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr
      · ipureintro; exact fun x _ => Or.inl ((hrec c).symm ▸ Set.mem_univ x)
      iexact HO
    isplitl [Hp]; · iexact Hp
    iexact Hrest
  hin c := by
    rw [hΦ0 c]; unfold plainΦ Pipeline.ΦA
    iintro ⟨Hp, -, Hr⟩
    iframe
  hout c := by
    rw [Pipeline.ownSems0_none]
    refine (hΦN c).trans ?_
    unfold plainΦ Pipeline.ΦA
    iintro ⟨Hr, Hp⟩
    iframe
    iempintro
  hexit c := by
    have hF : ∀ w, exitVal cfgs pdats p Win c (Proc.devRef .tc (Pipeline.arrRef (cfgs p).spec w)) = (pdats p c).arrAt w (cfgs p).N :=
      fun w => Pipeline.withArrays_arr _ launch.win.arr_inj c _ _ w
    have hne : ∀ b : Ref sig .tc, b ∉ Finset.univ.image (Pipeline.arrRef (cfgs p).spec)
        → exitVal cfgs pdats p Win c (Proc.devRef .tc b) = Win c (Proc.devRef .tc b) :=
      fun b hb => Pipeline.withArrays_of_ne _ c _ _ b fun w e => hb (Finset.mem_image.mpr ⟨w, Finset.mem_univ _, e⟩)
    have hjoin := Pipeline.unscopedBufs_of_arrays (p := p) (pcs cfgs) (adm cfgs) (Ix := Unit) (Name := ℕ) (U := U) (Lvl := ℕ)
      launch.win launch.arr_whole c pdats ((pdats p c).share_full (hq c)) (fun b => Win c b)
      (fun b => exitVal cfgs pdats p Win c b) ((pdats p c).arrAt · (cfgs p).N) (fun w => (hF w).symm) hne
    rw [Pipeline.unscopedBufs_held] at hjoin
    iintro ⟨Ha, HO, HY, Hrest⟩
    imodintro
    isplitl [Ha Hrest]
    · iapply hjoin; iframe
    isplitl [HY]; · iexact HY
    unfold Pipeline.Dat.owesAt Pipeline.owesWithin
    rw [howed c (Fin.last _)]
    icases HO with ⟨%W, -, HO⟩; iexists W; iexact HO

/-- A host stretch over the held buffers: it ends at the contents rewritten by its operations. -/
abbrev hostSeg (ops : List (HloOp τ sig Val)) (hsub : ops.Forall fun op => op.bufs ⊆ StableHlo.tcRefs τ sig)
    (W : Dev nD → Valuation τ sig Val)
    (hfresh : ops.Forall fun op => op.fresh = ∅ := by simp only [List.Forall]; repeat' constructor) :
    Pipeline.HostSeg (Ix := Unit) (Name := ℕ) (U := U) (Lvl := ℕ) (pcs (Val := Val) cfgs) defs₀ .none (fun _ => ∅) (fun _ _ => 0) :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W rest

variable {cfgs pdats defs₀} in
/-- Segments that chain to a state chain to any state it entails. -/
theorem chains_mono : ∀ {T : Dev nD → sProp 𝕄} {l : List (Pipeline.Seg (pcs cfgs) (adm cfgs) pdats () defs₀ .none (fun _ => ∅) (fun _ _ => 0))}
    {T' T'' : Dev nD → sProp 𝕄}, Pipeline.Seg.Chains T l T' → (∀ c, T' c ⊢ T'' c) → Pipeline.Seg.Chains T l T''
  | _, [], _, _, h, h' => fun c => (h c).trans (h' c)
  | _, _ :: _, _, _, ⟨h, hl⟩, h' => ⟨h, chains_mono hl h'⟩

end Cert.LibRegion

namespace Cert.LibRegion

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg PCfg)

variable {nD : Nat} {τ : Topo} {sig : RefSig} {Val : EltTy → Type} {Λ₀ : Idealize.SL.Sem.Labels} {P : Type} [Fintype P]

local notation "𝕄" => MT nD τ sig Unit Val ℕ (UR sig nD τ) ℕ

set_option backward.isDefEq.respectTransparency.types false in
/-- Segments chaining from the launch memory to the held contents `Wn` terminate fairly with every unscoped buffer at `Wn`. -/
theorem run_held [DecidableEq P] [∀ e, Nonempty (Val e)] (cfgs : P → Cfg sig Λ₀)
    (pdats : (p : P) → (c : Dev nD) → Dat τ Val Unit ℕ (UR sig nD τ) ℕ (cfgs p) c)
    (phinj : Function.Injective (Pipeline.cellOf (nD := nD) (τ := τ) cfgs))
    (defs₀ : Defs nD τ sig Val Λ₀)
    (m : (ℓ : Loc nD τ sig) → Buf Val ℓ) (ρ : Dev nD → PrngReg)
    (main : Dev nD → Prog (TpuEff nD τ sig Val (Pipeline.Sig Λ₀ P fun p => (pcs (Val := Val) cfgs p).Adm) .tc) PUnit)
    (segs : List (Pipeline.Seg (pcs cfgs) (adm cfgs) pdats () defs₀ .none (fun _ => ∅) (fun _ _ => 0)))
    (hmain : ∀ c, main c = Pipeline.Seg.run segs) (hnd : (Pipeline.Seg.pipes segs).Nodup)
    (Wn : Dev nD → Valuation τ sig Val)
    (hch : Pipeline.Seg.Chains (fun c => iprop(StableHlo.held (c : Thread nD τ) (Pipeline.ucRefs τ sig) (fun b => m ((c : Dev nD), b)) ∗ rest c))
      segs (fun c => iprop(StableHlo.held (c : Thread nD τ) (Pipeline.ucRefs τ sig) (Wn c) ∗ rest c))) :
    θ_run (Pipeline.defs (pcs cfgs) defs₀) (onTc (τ := τ) main) ⟨m, fun _ => 0, ρ⟩
      (fun r => ∀ c : Dev nD, ∀ b ∈ Pipeline.ucRefs τ sig, r.2.mem (((c : Thread nD τ)).1, b) = Wn c b) :=
  Pipeline.θ_run_regions_kit (pcs cfgs) (adm cfgs) pdats () phinj emb₁ defs₀ .none (fun _ => ∅) (fun _ _ => 0) m ρ main segs
    (fun c Q => by rw [hmain c]) hnd
    (O₀ := 0) (hL := fun _ _ => rfl) (G := fun _ => iprop(emp))
    (u₀ := initOf (Pipeline.cells _ phinj) (Pipeline.launchToks _ phinj))
    (hu₀ := by
      iintro Hu; imodintro
      isplitl [Hu]
      · iapply (show (ownU (initOf (Pipeline.cells _ phinj) (Pipeline.launchToks _ phinj)) : sProp 𝕄)
            ⊢ BI.own (emb₁ (initOf (Pipeline.cells _ phinj) (Pipeline.launchToks _ phinj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m ((c : Dev nD), b)) ∗ rest c))
    (Tₙ := fun c => iprop(StableHlo.held (c : Thread nD τ) (Pipeline.ucRefs τ sig) (Wn c) ∗ ∃ r, prngReg c r))
    (hch := chains_mono hch fun c => by
      iintro ⟨Hh, Hp, HO⟩
      iframe)
    (hinit := by
      refine Pipeline.initEach _ _ fun c => ?_
      rw [show unscopedBufs c (fun b => m ((c : Thread nD τ).loc b))
          = StableHlo.held (c : Thread nD τ) (Pipeline.ucRefs τ sig) (fun b => m ((c : Dev nD), b))
        from Pipeline.unscopedBufs_held c fun b => m ((c : Dev nD), b)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun s h => h)

end Cert.LibRegion

end
-- ==== Proof.K.Run.lean ====
import proofs.«419567_j13065290514766_1_alg».proof.Proof.K.Run1
import proofs.«419567_j13065290514766_1_alg».proof.Proof.LibRegionSeg

noncomputable section

namespace Cert.Kernel.Gen

open Idealize.ShloMosaic Idealize.ShloMosaic.TcCoe Idealize.SL.BI
open Idealize.ShloMosaic.Pipeline (Dat)
open LibRegion (regionSeg hostSeg)

variable {F : FTy → Type} [FloatOps F]

variable (m : (ℓ : Loc nD τ sig) → Buf (Elt F) ℓ) (ρ : Dev nD → PrngReg)

/-- Every pipeline's proof data, each taken at the contents its region is entered from. -/
def pdats : (p : Fin 11) → (c : Dev nD) → Dat τ (Elt F) Unit ℕ (UR sig nD τ) ℕ (cfgs p) c
  | ⟨0, _⟩ => dat0 (V3 m ρ)
  | ⟨1, _⟩ => dat1 (V5 m ρ)
  | ⟨2, _⟩ => dat2 (V6 m ρ)
  | ⟨3, _⟩ => dat3 (V8 m ρ)
  | ⟨4, _⟩ => dat4 (V9 m ρ)
  | ⟨5, _⟩ => dat5 (V11 m ρ)
  | ⟨6, _⟩ => dat6 (V12 m ρ)
  | ⟨7, _⟩ => dat7 (V14 m ρ)
  | ⟨8, _⟩ => dat8 (V15 m ρ)
  | ⟨9, _⟩ => dat9 (V17 m ρ)
  | ⟨10, _⟩ => dat10 (V19 m ρ)

/-- The twenty items in program order, each between its two valuations. -/
abbrev segs : List (Pipeline.Seg (pcfgs (F := F)) (LibRegion.adm cfgs) (pdats m ρ) () defs₀ Variants.none (fun _ => ∅) fun _ _ => 0) :=
  [
    .host (hostSeg cfgs defs₀ hostOps0 hostOps0_sub (W0 m ρ)),
    .host (hostSeg cfgs defs₀ hostOps0_1 hostOps0_1_sub (W1 m ρ)),
    .host (hostSeg cfgs defs₀ hostOps0_2 hostOps0_2_sub (W2 m ρ)),
    .region (regionSeg cfgs (pdats m ρ) defs₀ 0 launch0 (W3 m ρ) (fun c => (body_obligation0 (V3 m ρ) c).loose) (A_eq0 (V3 m ρ))),
    .host (hostSeg cfgs defs₀ hostOps1 hostOps1_sub (W4 m ρ)),
    .region (regionSeg cfgs (pdats m ρ) defs₀ 1 launch1 (W5 m ρ) (fun c => (body_obligation1 (V5 m ρ) c).loose) (A_eq1 (V5 m ρ))),
    .region (regionSeg cfgs (pdats m ρ) defs₀ 2 launch2 (W6 m ρ) (fun c => (body_obligation2 (V6 m ρ) c).loose) (A_eq2 (V6 m ρ))),
    .host (hostSeg cfgs defs₀ hostOps3 hostOps3_sub (W7 m ρ)),
    .region (regionSeg cfgs (pdats m ρ) defs₀ 3 launch3 (W8 m ρ) (fun c => (body_obligation3 (V8 m ρ) c).loose) (A_eq3 (V8 m ρ))),
    .region (regionSeg cfgs (pdats m ρ) defs₀ 4 launch4 (W9 m ρ) (fun c => (body_obligation4 (V9 m ρ) c).loose) (A_eq4 (V9 m ρ))),
    .host (hostSeg cfgs defs₀ hostOps5 hostOps5_sub (W10 m ρ)),
    .region (regionSeg cfgs (pdats m ρ) defs₀ 5 launch5 (W11 m ρ) (fun c => (body_obligation5 (V11 m ρ) c).loose) (A_eq5 (V11 m ρ))),
    .region (regionSeg cfgs (pdats m ρ) defs₀ 6 launch6 (W12 m ρ) (fun c => (body_obligation6 (V12 m ρ) c).loose) (A_eq6 (V12 m ρ))),
    .host (hostSeg cfgs defs₀ hostOps7 hostOps7_sub (W13 m ρ)),
    .region (regionSeg cfgs (pdats m ρ) defs₀ 7 launch7 (W14 m ρ) (fun c => (body_obligation7 (V14 m ρ) c).loose) (A_eq7 (V14 m ρ))),
    .region (regionSeg cfgs (pdats m ρ) defs₀ 8 launch8 (W15 m ρ) (fun c => (body_obligation8 (V15 m ρ) c).loose) (A_eq8 (V15 m ρ))),
    .host (hostSeg cfgs defs₀ hostOps9 hostOps9_sub (W16 m ρ)),
    .region (regionSeg cfgs (pdats m ρ) defs₀ 9 launch9 (W17 m ρ) (fun c => (body_obligation9 (V17 m ρ) c).loose) (A_eq9 (V17 m ρ))),
    .host (hostSeg cfgs defs₀ hostOps10 hostOps10_sub (W18 m ρ)),
    .region (regionSeg cfgs (pdats m ρ) defs₀ 10 launch10 (W19 m ρ) (fun c => (body_obligation10 (V19 m ρ) c).loose) (A_eq10 (V19 m ρ))
      (owed10 (V19 m ρ)) (recorded10 (V19 m ρ)) (share10 (V19 m ρ)) (Phi10_zero (V19 m ρ)) (hout10 (V19 m ρ))) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The entry function is the segments' chain, and consecutive segments meet at the same contents by definition. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W20 m ρ c b) :=
  LibRegion.run_held cfgs (pdats m ρ) cellOf_inj defs₀ m ρ main (segs m ρ)
    (fun c => by rw [main_chain c, Pipeline.Seg.run_eq_chain]; rfl)
    (by simp only [segs, Pipeline.Seg.pipes_host, Pipeline.Seg.pipes_region, Pipeline.Seg.pipes_nil]; decide)
    (W20 m ρ)
    ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩

/-- A reference the thread state holds and no item writes ends as launched. -/
theorem launch_kept {r : PUnit × MemSt nD τ sig (Elt F)}
    (h : ∀ c : Dev nD, ∀ b ∈ Pipeline.ucRefs τ sig, r.2.mem (((c : Thread nD τ)).1, b) = W20 m ρ c b) (c : Dev nD)
    (b : Ref sig .tc) (hs : ¬ (Proc.devRef .tc b : DevRef τ sig).isScoped) (hu : Untouched b) :
    r.2.mem ((c : Thread nD τ).loc b) = m ((c : Thread nD τ).loc b) :=
  (h c _ (mem_uc b hs)).trans (W20_launch m ρ c b hu)

/-- info: 'Cert.Kernel.Gen.run_all' depends on axioms: [propext, Classical.choice, Quot.sound] -/
#guard_msgs in #print axioms run_all

end Cert.Kernel.Gen

end
-- ==== Proof.KI.Mm0.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S5000x128 := Rect.unit (s := S5000x128) ![0, 0] S5000x128.size inb_S5000x128_S5000x128_0_0
abbrev r0_w : Rect S128x128 := Rect.unit (s := S128x128) ![0, 0] S128x128.size inb_S128x128_S128x128_0_0
abbrev r0_o : Rect S5000x128 := Rect.unit (s := S5000x128) ![0, 0] S5000x128.size inb_S5000x128_S5000x128_0_0

def out0_2 (x0 : Vec F S5000x128 .f32) (x1 : Vec F S128x128 .f32) : Vec F S5000x128 .f32 :=
  View.canon [⟨r0_o, k0_pay1 (View.ld x0 r0_x) (View.ld x1 r0_w)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := rfl
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- The body is two loads and one store over the whole output block, so the generic triple applies at every point. -/
theorem body_obligation0 (c : Dev nD) : BodyObligation (dat0 (F := F) V c) (defs₀ (F := F)) Variants.none () Set.univ :=
  (dat0 V c).bodyObligation_of_triple 0 1 2 bigSep_W0 fun t => by
    dsimp only [dat0]
    show _ ⊢ wp _ _ _ (bodyAt0 (F := F) t) _
    unfold bodyAt0; rw [cc0__matmul_kernel_eq_skeleton]
    exact wp_load2_store (e1 := .f32) (e2 := .f32) (e3 := .f32) r0_x r0_w r0_o k0_pay1 S5000x128.size

end Cert.KernelIdeal.Gen

end
-- ==== Proof.KI.Br1.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_x : Rect S5000x128 := Rect.unit (s := S5000x128) ![0, 0] S5000x128.size inb_S5000x128_S5000x128_0_0
abbrev r1_w : Rect S1x128 := Rect.unit (s := S1x128) ![0, 0] S1x128.size inb_S1x128_S1x128_0_0
abbrev r1_o : Rect S5000x128 := Rect.unit (s := S5000x128) ![0, 0] S5000x128.size inb_S5000x128_S5000x128_0_0

def out1_2 (x0 : Vec F S5000x128 .f32) (x1 : Vec F S1x128 .f32) : Vec F S5000x128 .f32 :=
  View.canon [⟨r1_o, k1_pay1 (View.ld x0 r1_x) (View.ld x1 r1_w)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := rfl
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- The body is two loads and one store over the whole output block, so the generic triple applies at every point. -/
theorem body_obligation1 (c : Dev nD) : BodyObligation (dat1 (F := F) V c) (defs₀ (F := F)) Variants.none () Set.univ :=
  (dat1 V c).bodyObligation_of_triple 0 1 2 bigSep_W1 fun t => by
    dsimp only [dat1]
    show _ ⊢ wp _ _ _ (bodyAt1 (F := F) t) _
    unfold bodyAt1; rw [cc1__bias_relu_kernel_eq_skeleton]
    exact wp_load2_store (e1 := .f32) (e2 := .f32) (e3 := .f32) r1_x r1_w r1_o k1_pay1 S5000x128.size

end Cert.KernelIdeal.Gen

end
-- ==== Proof.KI.Mm2.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S5000x128 := Rect.unit (s := S5000x128) ![0, 0] S5000x128.size inb_S5000x128_S5000x128_0_0
abbrev r2_w : Rect S128x128 := Rect.unit (s := S128x128) ![0, 0] S128x128.size inb_S128x128_S128x128_0_0
abbrev r2_o : Rect S5000x128 := Rect.unit (s := S5000x128) ![0, 0] S5000x128.size inb_S5000x128_S5000x128_0_0

def out2_2 (x0 : Vec F S5000x128 .f32) (x1 : Vec F S128x128 .f32) : Vec F S5000x128 .f32 :=
  View.canon [⟨r2_o, k2_pay1 (View.ld x0 r2_x) (View.ld x1 r2_w)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := rfl
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

/-- The body is two loads and one store over the whole output block, so the generic triple applies at every point. -/
theorem body_obligation2 (c : Dev nD) : BodyObligation (dat2 (F := F) V c) (defs₀ (F := F)) Variants.none () Set.univ :=
  (dat2 V c).bodyObligation_of_triple 0 1 2 bigSep_W2 fun t => by
    dsimp only [dat2]
    show _ ⊢ wp _ _ _ (bodyAt2 (F := F) t) _
    unfold bodyAt2; rw [cc2__matmul_kernel_eq_skeleton]
    exact wp_load2_store (e1 := .f32) (e2 := .f32) (e3 := .f32) r2_x r2_w r2_o k2_pay1 S5000x128.size

end Cert.KernelIdeal.Gen

end
-- ==== Proof.KI.Br3.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_x : Rect S5000x128 := Rect.unit (s := S5000x128) ![0, 0] S5000x128.size inb_S5000x128_S5000x128_0_0
abbrev r3_w : Rect S1x128 := Rect.unit (s := S1x128) ![0, 0] S1x128.size inb_S1x128_S1x128_0_0
abbrev r3_o : Rect S5000x128 := Rect.unit (s := S5000x128) ![0, 0] S5000x128.size inb_S5000x128_S5000x128_0_0

def out3_2 (x0 : Vec F S5000x128 .f32) (x1 : Vec F S1x128 .f32) : Vec F S5000x128 .f32 :=
  View.canon [⟨r3_o, k3_pay1 (View.ld x0 r3_x) (View.ld x1 r3_w)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := rfl
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- The body is two loads and one store over the whole output block, so the generic triple applies at every point. -/
theorem body_obligation3 (c : Dev nD) : BodyObligation (dat3 (F := F) V c) (defs₀ (F := F)) Variants.none () Set.univ :=
  (dat3 V c).bodyObligation_of_triple 0 1 2 bigSep_W3 fun t => by
    dsimp only [dat3]
    show _ ⊢ wp _ _ _ (bodyAt3 (F := F) t) _
    unfold bodyAt3; rw [cc3__bias_relu_kernel_eq_skeleton]
    exact wp_load2_store (e1 := .f32) (e2 := .f32) (e3 := .f32) r3_x r3_w r3_o k3_pay1 S5000x128.size

end Cert.KernelIdeal.Gen

end
-- ==== Proof.KI.Mm4.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_x : Rect S5000x128 := Rect.unit (s := S5000x128) ![0, 0] S5000x128.size inb_S5000x128_S5000x128_0_0
abbrev r4_w : Rect S128x128 := Rect.unit (s := S128x128) ![0, 0] S128x128.size inb_S128x128_S128x128_0_0
abbrev r4_o : Rect S5000x128 := Rect.unit (s := S5000x128) ![0, 0] S5000x128.size inb_S5000x128_S5000x128_0_0

def out4_2 (x0 : Vec F S5000x128 .f32) (x1 : Vec F S128x128 .f32) : Vec F S5000x128 .f32 :=
  View.canon [⟨r4_o, k4_pay1 (View.ld x0 r4_x) (View.ld x1 r4_w)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := rfl
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = out4_2 (iblk4 V c 0 t) (iblk4 V c 1 t) := by dsimp only [dat4]

/-- The body is two loads and one store over the whole output block, so the generic triple applies at every point. -/
theorem body_obligation4 (c : Dev nD) : BodyObligation (dat4 (F := F) V c) (defs₀ (F := F)) Variants.none () Set.univ :=
  (dat4 V c).bodyObligation_of_triple 0 1 2 bigSep_W4 fun t => by
    dsimp only [dat4]
    show _ ⊢ wp _ _ _ (bodyAt4 (F := F) t) _
    unfold bodyAt4; rw [cc4__matmul_kernel_eq_skeleton]
    exact wp_load2_store (e1 := .f32) (e2 := .f32) (e3 := .f32) r4_x r4_w r4_o k4_pay1 S5000x128.size

end Cert.KernelIdeal.Gen

end
-- ==== Proof.KI.Br5.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_x : Rect S5000x128 := Rect.unit (s := S5000x128) ![0, 0] S5000x128.size inb_S5000x128_S5000x128_0_0
abbrev r5_w : Rect S1x128 := Rect.unit (s := S1x128) ![0, 0] S1x128.size inb_S1x128_S1x128_0_0
abbrev r5_o : Rect S5000x128 := Rect.unit (s := S5000x128) ![0, 0] S5000x128.size inb_S5000x128_S5000x128_0_0

def out5_2 (x0 : Vec F S5000x128 .f32) (x1 : Vec F S1x128 .f32) : Vec F S5000x128 .f32 :=
  View.canon [⟨r5_o, k5_pay1 (View.ld x0 r5_x) (View.ld x1 r5_w)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := rfl
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = out5_2 (iblk5 V c 0 t) (iblk5 V c 1 t) := by dsimp only [dat5]

/-- The body is two loads and one store over the whole output block, so the generic triple applies at every point. -/
theorem body_obligation5 (c : Dev nD) : BodyObligation (dat5 (F := F) V c) (defs₀ (F := F)) Variants.none () Set.univ :=
  (dat5 V c).bodyObligation_of_triple 0 1 2 bigSep_W5 fun t => by
    dsimp only [dat5]
    show _ ⊢ wp _ _ _ (bodyAt5 (F := F) t) _
    unfold bodyAt5; rw [cc5__bias_relu_kernel_eq_skeleton]
    exact wp_load2_store (e1 := .f32) (e2 := .f32) (e3 := .f32) r5_x r5_w r5_o k5_pay1 S5000x128.size

end Cert.KernelIdeal.Gen

end
-- ==== Proof.KI.Mm6.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S5000x128 := Rect.unit (s := S5000x128) ![0, 0] S5000x128.size inb_S5000x128_S5000x128_0_0
abbrev r6_w : Rect S128x64 := Rect.unit (s := S128x64) ![0, 0] S128x64.size inb_S128x64_S128x64_0_0
abbrev r6_o : Rect S5000x64 := Rect.unit (s := S5000x64) ![0, 0] S5000x64.size inb_S5000x64_S5000x64_0_0

def out6_2 (x0 : Vec F S5000x128 .f32) (x1 : Vec F S128x64 .f32) : Vec F S5000x64 .f32 :=
  View.canon [⟨r6_o, k6_pay1 (View.ld x0 r6_x) (View.ld x1 r6_w)⟩]

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => out6_2 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := rfl
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = out6_2 (iblk6 V c 0 t) (iblk6 V c 1 t) := by dsimp only [dat6]

/-- The body is two loads and one store over the whole output block, so the generic triple applies at every point. -/
theorem body_obligation6 (c : Dev nD) : BodyObligation (dat6 (F := F) V c) (defs₀ (F := F)) Variants.none () Set.univ :=
  (dat6 V c).bodyObligation_of_triple 0 1 2 bigSep_W6 fun t => by
    dsimp only [dat6]
    show _ ⊢ wp _ _ _ (bodyAt6 (F := F) t) _
    unfold bodyAt6; rw [cc6__matmul_kernel_eq_skeleton]
    exact wp_load2_store (e1 := .f32) (e2 := .f32) (e3 := .f32) r6_x r6_w r6_o k6_pay1 S5000x64.size

end Cert.KernelIdeal.Gen

end
-- ==== Proof.KI.Br7.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_x : Rect S5000x64 := Rect.unit (s := S5000x64) ![0, 0] S5000x64.size inb_S5000x64_S5000x64_0_0
abbrev r7_w : Rect S1x64 := Rect.unit (s := S1x64) ![0, 0] S1x64.size inb_S1x64_S1x64_0_0
abbrev r7_o : Rect S5000x64 := Rect.unit (s := S5000x64) ![0, 0] S5000x64.size inb_S5000x64_S5000x64_0_0

def out7_2 (x0 : Vec F S5000x64 .f32) (x1 : Vec F S1x64 .f32) : Vec F S5000x64 .f32 :=
  View.canon [⟨r7_o, k7_pay1 (View.ld x0 r7_x) (View.ld x1 r7_w)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := rfl
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = out7_2 (iblk7 V c 0 t) (iblk7 V c 1 t) := by dsimp only [dat7]

/-- The body is two loads and one store over the whole output block, so the generic triple applies at every point. -/
theorem body_obligation7 (c : Dev nD) : BodyObligation (dat7 (F := F) V c) (defs₀ (F := F)) Variants.none () Set.univ :=
  (dat7 V c).bodyObligation_of_triple 0 1 2 bigSep_W7 fun t => by
    dsimp only [dat7]
    show _ ⊢ wp _ _ _ (bodyAt7 (F := F) t) _
    unfold bodyAt7; rw [cc7__bias_relu_kernel_eq_skeleton]
    exact wp_load2_store (e1 := .f32) (e2 := .f32) (e3 := .f32) r7_x r7_w r7_o k7_pay1 S5000x64.size

end Cert.KernelIdeal.Gen

end
-- ==== Proof.KI.Mm8.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_x : Rect S5000x64 := Rect.unit (s := S5000x64) ![0, 0] S5000x64.size inb_S5000x64_S5000x64_0_0
abbrev r8_w : Rect S64x32 := Rect.unit (s := S64x32) ![0, 0] S64x32.size inb_S64x32_S64x32_0_0
abbrev r8_o : Rect S5000x32 := Rect.unit (s := S5000x32) ![0, 0] S5000x32.size inb_S5000x32_S5000x32_0_0

def out8_2 (x0 : Vec F S5000x64 .f32) (x1 : Vec F S64x32 .f32) : Vec F S5000x32 .f32 :=
  View.canon [⟨r8_o, k8_pay1 (View.ld x0 r8_x) (View.ld x1 r8_w)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := rfl
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = out8_2 (iblk8 V c 0 t) (iblk8 V c 1 t) := by dsimp only [dat8]

/-- The body is two loads and one store over the whole output block, so the generic triple applies at every point. -/
theorem body_obligation8 (c : Dev nD) : BodyObligation (dat8 (F := F) V c) (defs₀ (F := F)) Variants.none () Set.univ :=
  (dat8 V c).bodyObligation_of_triple 0 1 2 bigSep_W8 fun t => by
    dsimp only [dat8]
    show _ ⊢ wp _ _ _ (bodyAt8 (F := F) t) _
    unfold bodyAt8; rw [cc8__matmul_kernel_eq_skeleton]
    exact wp_load2_store (e1 := .f32) (e2 := .f32) (e3 := .f32) r8_x r8_w r8_o k8_pay1 S5000x32.size

end Cert.KernelIdeal.Gen

end
-- ==== Proof.KI.Br9.lean ====
import proofs.«419567_j13065290514766_1_alg».proof.Proof.Gen.KernelIdeal.Launch
import proofs.«419567_j13065290514766_1_alg».proof.Proof.Gen.KernelIdeal.Skeleton
import proofs.«419567_j13065290514766_1_alg».proof.Proof.Gen.KernelIdeal.Points
import proofs.«419567_j13065290514766_1_alg».proof.Proof.LibBodyOfKernel

noncomputable section

namespace Cert.KernelIdeal.Gen

open Idealize.ShloMosaic Idealize.ShloMosaic.TcCoe Idealize.ShloMosaic.Pipeline Idealize.SL.RA Idealize.SL.Sem Idealize.SL.BI.BIBase

variable {F : FTy → Type} [FloatOps F]
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_x : Rect S5000x32 := Rect.unit (s := S5000x32) ![0, 0] S5000x32.size inb_S5000x32_S5000x32_0_0
abbrev r9_w : Rect S1x32 := Rect.unit (s := S1x32) ![0, 0] S1x32.size inb_S1x32_S1x32_0_0
abbrev r9_o : Rect S5000x32 := Rect.unit (s := S5000x32) ![0, 0] S5000x32.size inb_S5000x32_S5000x32_0_0

def out9_2 (x0 : Vec F S5000x32 .f32) (x1 : Vec F S1x32 .f32) : Vec F S5000x32 .f32 :=
  View.canon [⟨r9_o, k9_pay1 (View.ld x0 r9_x) (View.ld x1 r9_w)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := rfl
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = out9_2 (iblk9 V c 0 t) (iblk9 V c 1 t) := by dsimp only [dat9]

/-- The body is two loads and one store over the whole output block, so the generic triple applies at every point. -/
theorem body_obligation9 (c : Dev nD) : BodyObligation (dat9 (F := F) V c) (defs₀ (F := F)) Variants.none () Set.univ :=
  (dat9 V c).bodyObligation_of_triple 0 1 2 bigSep_W9 fun t => by
    dsimp only [dat9]
    show _ ⊢ wp _ _ _ (bodyAt9 (F := F) t) _
    unfold bodyAt9; rw [cc9__bias_relu_kernel_eq_skeleton]
    exact wp_load2_store (e1 := .f32) (e2 := .f32) (e3 := .f32) r9_x r9_w r9_o k9_pay1 S5000x32.size

end Cert.KernelIdeal.Gen

end
-- ==== Proof.KI.Pool.lean ====
import proofs.«419567_j13065290514766_1_alg».proof.Proof.KI.Mm0
import Idealize.ShloMosaic.Lib.Pipeline.Value

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond10_0 (i : grid10.Coords) : Prop :=
  (Scalar.cmpi .ne (Scalar.extui (Scalar.cmpi .eq (BitVec.ofNat 32 (i 0).val) 0#32)) 0#32) = 1#1

abbrev cond10_1 (i : grid10.Coords) : Prop := k10_cond2 i = 1#1

theorem hcond10_0 : ∀ t : Fin cfg10.N, cond10_0 (grid10.coords t) ↔ t.val = 0 :=
  (by decide +kernel : ∀ t : Fin grid10.N, cond10_0 (grid10.coords t) ↔ t.val = 0)

theorem hcond10_1 : ∀ t : Fin cfg10.N, cond10_1 (grid10.coords t) ↔ t.val = 19 :=
  (by decide +kernel : ∀ t : Fin grid10.N, cond10_1 (grid10.coords t) ↔ t.val = 19)

theorem hz10 : (![0, 0] : Fin 2 → Nat) = fun _ => 0 := funext fun a => by fin_cases a <;> rfl

theorem read_whole_store_last {sig' : RefSig} {κ : Kind} {sp : Space} {S : Shape} {e : EltTy} (v : View sig' κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.Mem.head _, View.mem_set_unit_zero h inb y⟩)).trans
    (View.canon_cons_unit_zero h inb w L)

set_option maxHeartbeats 2000000 in

theorem poolRun_A (c : Dev nD) (E : Set ℕ) (i : grid10.Coords)
    (arg1 : Memref sig .tc .vmem S5000x32 .f32) (harg1 : arg1.IsWhole) (arg2 : Memref sig .tc .vmem S5000x1 .i32) (harg2 : arg2.IsWhole)
    (arg3 : Memref sig .tc .vmem S32x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x32 .f32) (harg6 : arg6.IsWhole)
    (arg7 : Memref sig .tc .vmem S64x1 .f32) (harg7 : arg7.IsWhole)
    (hc0 : cond10_0 i) (hc1 : ¬ cond10_1 i)
    (x0 : Vec F S5000x32 .f32) (x1 : Vec F S5000x1 .i32) (x2 : Vec F S32x10 .f32) (x3 : Vec F S1x10 .f32) (x4 : Vec F S64x10 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k10_pay4 x1 (k10_pay1 (F := F)) x0) ∗ owns (c : Thread nD τ) arg7 fullShare (k10_pay5 x1 (k10_pay2 (F := F)))) -∗ K ⟨⟩))
      ⊢ wp frame (wpE (defs₀ (F := F)) Variants.none c none) E (cc10__pool_kernel i arg1 harg1 arg2 harg2 arg3 harg3 arg4 harg4 arg5 harg5 arg6 harg6 arg7 harg7) K := by
  simp only [cc10__pool_kernel_eq_skeleton]; unfold cc10__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d6, %f6, -, H6⟩, ⟨%d7, %f7, -, H7⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_run_names
    refine (read_whole_store_last _ _ hz10 _ _ _).trans ?_
    simp only [View.readAt_eq_ld, View.readCov_unit_zero (S := S64x32) _ hz10, View.ld_unit_zero (S := S5000x1) hz10, View.ld_unit_zero (S := S5000x32) hz10]
  · iexists _; isplitr
    swap; · iexact H7
    ipureintro
    sl_unfold_run_names
    refine (read_whole_store_last _ _ hz10 _ _ _).trans ?_
    simp only [View.readAt_eq_ld, View.readCov_unit_zero (S := S64x1) _ hz10, View.ld_unit_zero (S := S5000x1) hz10]

set_option maxHeartbeats 2000000 in

theorem poolRun_B (c : Dev nD) (E : Set ℕ) (i : grid10.Coords)
    (arg1 : Memref sig .tc .vmem S5000x32 .f32) (harg1 : arg1.IsWhole) (arg2 : Memref sig .tc .vmem S5000x1 .i32) (harg2 : arg2.IsWhole)
    (arg3 : Memref sig .tc .vmem S32x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x32 .f32) (harg6 : arg6.IsWhole)
    (arg7 : Memref sig .tc .vmem S64x1 .f32) (harg7 : arg7.IsWhole)
    (hc0 : ¬ cond10_0 i) (hc1 : ¬ cond10_1 i)
    (x0 : Vec F S5000x32 .f32) (x1 : Vec F S5000x1 .i32) (x2 : Vec F S32x10 .f32) (x3 : Vec F S1x10 .f32) (x4 : Vec F S64x10 .f32)
    (s6 : Vec F S64x32 .f32) (s7 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ owns (c : Thread nD τ) arg6 fullShare s6 ∗ owns (c : Thread nD τ) arg7 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (k10_pay4 x1 s6 x0) ∗ owns (c : Thread nD τ) arg7 fullShare (k10_pay5 x1 s7)) -∗ K ⟨⟩))
      ⊢ wp frame (wpE (defs₀ (F := F)) Variants.none c none) E (cc10__pool_kernel i arg1 harg1 arg2 harg2 arg3 harg3 arg4 harg4 arg5 harg5 arg6 harg6 arg7 harg7) K := by
  simp only [cc10__pool_kernel_eq_skeleton]; unfold cc10__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f6, %hf6, H6⟩, ⟨%f7, %hf7, H7⟩, Hk⟩
  subst hf0; subst hf1; subst hf2; subst hf3; subst hf4; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H6]
  · iexists _; isplitr
    swap; · iexact H6
    ipureintro
    sl_unfold_run_names
    refine (read_whole_store_last _ _ hz10 _ _ _).trans ?_
    simp only [View.readAt_eq_ld, View.ld_unit_zero (S := S5000x1) hz10, View.ld_unit_zero (S := S5000x32) hz10, View.ld_unit_zero (S := S64x32) hz10]
  · iexists _; isplitr
    swap; · iexact H7
    ipureintro
    sl_unfold_run_names
    refine (read_whole_store_last _ _ hz10 _ _ _).trans ?_
    simp only [View.readAt_eq_ld, View.ld_unit_zero (S := S5000x1) hz10, View.ld_unit_zero (S := S64x1) hz10]

set_option maxHeartbeats 2000000 in

theorem poolRun_C (c : Dev nD) (E : Set ℕ) (i : grid10.Coords)
    (arg1 : Memref sig .tc .vmem S5000x32 .f32) (harg1 : arg1.IsWhole) (arg2 : Memref sig .tc .vmem S5000x1 .i32) (harg2 : arg2.IsWhole)
    (arg3 : Memref sig .tc .vmem S32x10 .f32) (harg3 : arg3.IsWhole) (arg4 : Memref sig .tc .vmem S1x10 .f32) (harg4 : arg4.IsWhole)
    (arg5 : Memref sig .tc .vmem S64x10 .f32) (harg5 : arg5.IsWhole) (arg6 : Memref sig .tc .vmem S64x32 .f32) (harg6 : arg6.IsWhole)
    (arg7 : Memref sig .tc .vmem S64x1 .f32) (harg7 : arg7.IsWhole)
    (hc0 : ¬ cond10_0 i) (hc1 : cond10_1 i)
    (x0 : Vec F S5000x32 .f32) (x1 : Vec F S5000x1 .i32) (x2 : Vec F S32x10 .f32) (x3 : Vec F S1x10 .f32)
    (s6 : Vec F S64x32 .f32) (s7 : Vec F S64x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ owns (c : Thread nD τ) arg6 fullShare s6 ∗ owns (c : Thread nD τ) arg7 fullShare s7
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (k10_pay6 (k10_pay4 x1 s6 x0) (k10_pay5 x1 s7) x2 x3)
            ∗ owns (c : Thread nD τ) arg6 fullShare (k10_pay4 x1 s6 x0) ∗ owns (c : Thread nD τ) arg7 fullShare (k10_pay5 x1 s7)) -∗ K ⟨⟩))
      ⊢ wp frame (wpE (defs₀ (F := F)) Variants.none c none) E (cc10__pool_kernel i arg1 harg1 arg2 harg2 arg3 harg3 arg4 harg4 arg5 harg5 arg6 harg6 arg7 harg7) K := by
  simp only [cc10__pool_kernel_eq_skeleton]; unfold cc10__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f6, %hf6, H6⟩, ⟨%f7, %hf7, H7⟩, Hk⟩
  subst hf0; subst hf1; subst hf2; subst hf3; subst hf6; subst hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_whole_store_last _ _ hz10 _ _ _).trans ?_
    simp only [View.readAt_eq_ld, View.readCov_unit_zero (S := S64x32) _ hz10, View.readCov_unit_zero (S := S64x1) _ hz10, View.ld_unit_zero (S := S5000x1) hz10, View.ld_unit_zero (S := S5000x32) hz10, View.ld_unit_zero (S := S64x32) hz10, View.ld_unit_zero (S := S64x1) hz10, View.ld_unit_zero (S := S32x10) hz10, View.ld_unit_zero (S := S1x10) hz10]
  isplitl [H6]
  · iexists _; isplitr
    swap; · iexact H6
    ipureintro
    sl_unfold_run_names
    refine (read_whole_store_last _ _ hz10 _ _ _).trans ?_
    simp only [View.readAt_eq_ld, View.ld_unit_zero (S := S5000x1) hz10, View.ld_unit_zero (S := S5000x32) hz10, View.ld_unit_zero (S := S64x32) hz10]
  · iexists _; isplitr
    swap; · iexact H7
    ipureintro
    sl_unfold_run_names
    refine (read_whole_store_last _ _ hz10 _ _ _).trans ?_
    simp only [View.readAt_eq_ld, View.ld_unit_zero (S := S5000x1) hz10, View.ld_unit_zero (S := S64x1) hz10]

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def accAt10 (c : Dev nD) : (n : ℕ) → n < cfg10.N → Vec F S64x32 .f32 × Vec F S64x1 .f32
  | 0, hn => (k10_pay4 (iblk10 V c 1 ⟨0, hn⟩) (k10_pay1 (F := F)) (iblk10 V c 0 ⟨0, hn⟩), k10_pay5 (iblk10 V c 1 ⟨0, hn⟩) (k10_pay2 (F := F)))
  | n + 1, hn => (k10_pay4 (iblk10 V c 1 ⟨n + 1, hn⟩) (accAt10 c n (Nat.lt_of_succ_lt hn)).1 (iblk10 V c 0 ⟨n + 1, hn⟩),
      k10_pay5 (iblk10 V c 1 ⟨n + 1, hn⟩) (accAt10 c n (Nat.lt_of_succ_lt hn)).2)

theorem accAt10_zero (c : Dev nD) (hn : 0 < cfg10.N) :
    accAt10 V c 0 hn = (k10_pay4 (iblk10 V c 1 ⟨0, hn⟩) (k10_pay1 (F := F)) (iblk10 V c 0 ⟨0, hn⟩), k10_pay5 (iblk10 V c 1 ⟨0, hn⟩) (k10_pay2 (F := F))) := rfl
theorem accAt10_succ (c : Dev nD) (n : ℕ) (hn : n + 1 < cfg10.N) :
    accAt10 V c (n + 1) hn = (k10_pay4 (iblk10 V c 1 ⟨n + 1, hn⟩) (accAt10 V c n (Nat.lt_of_succ_lt hn)).1 (iblk10 V c 0 ⟨n + 1, hn⟩),
      k10_pay5 (iblk10 V c 1 ⟨n + 1, hn⟩) (accAt10 V c n (Nat.lt_of_succ_lt hn)).2) := rfl

theorem accAt10_first (c : Dev nD) (t : Fin cfg10.N) (h : t.val = 0) :
    accAt10 V c t.val t.isLt = (k10_pay4 (iblk10 V c 1 t) (k10_pay1 (F := F)) (iblk10 V c 0 t), k10_pay5 (iblk10 V c 1 t) (k10_pay2 (F := F))) := by
  obtain ⟨n, hn⟩ := t
  cases n with
  | zero => rfl
  | succ n => exact absurd h (Nat.succ_ne_zero n)

theorem accAt10_next (c : Dev nD) (t : Fin cfg10.N) (h : t.val ≠ 0) :
    accAt10 V c t.val t.isLt = (k10_pay4 (iblk10 V c 1 t) (accAt10 V c (t.val - 1) (Nat.lt_of_le_of_lt (Nat.sub_le _ _) t.isLt)).1 (iblk10 V c 0 t),
      k10_pay5 (iblk10 V c 1 t) (accAt10 V c (t.val - 1) (Nat.lt_of_le_of_lt (Nat.sub_le _ _) t.isLt)).2) := by
  obtain ⟨n, hn⟩ := t
  cases n with
  | zero => exact absurd rfl h
  | succ n => rfl

theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

abbrev scr10_0 : Memref sig .tc .vmem S64x32 .f32 := Memref.whole cc10_scratch0
abbrev scr10_1 : Memref sig .tc .vmem S64x1 .f32 := Memref.whole cc10_scratch1

theorem PhiA10_eq (c : Dev nD) :
    (Pipeline.ΦA spec10 c : sProp 𝕄)
      = iprop(iprop(iprop((∃ d, owns (c : Thread nD τ) scr10_0 fullShare d) ∗ (∃ d, owns (c : Thread nD τ) scr10_1 fullShare d))
          ∗ Pipeline.scopedRestBut spec10 c [cc10_scratch0, cc10_scratch1]) ∗ (∃ r, prngReg c r)) := by
  unfold Pipeline.ΦA; rw [scopedRest10_split]; simp only [scr10_0, scr10_1, owns_whole]; rfl

def Phi10 (c : Dev nD) : (n : ℕ) → n ≤ cfg10.N → sProp 𝕄
  | 0, _ => Pipeline.ΦA spec10 c
  | n + 1, hn => iprop(owns (c : Thread nD τ) scr10_0 fullShare (accAt10 V c n hn).1 ∗ owns (c : Thread nD τ) scr10_1 fullShare (accAt10 V c n hn).2
      ∗ Pipeline.scopedRestBut spec10 c [cc10_scratch0, cc10_scratch1] ∗ ∃ r, prngReg c r)

theorem Phi10_first (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(owns (c : Thread nD τ) scr10_0 fullShare (accAt10 V c n hn).1 ∗ owns (c : Thread nD τ) scr10_1 fullShare (accAt10 V c n hn).2
      ∗ Pipeline.scopedRestBut spec10 c [cc10_scratch0, cc10_scratch1] ∗ ∃ r, prngReg c r) := rfl

theorem Phi10_pos (c : Dev nD) (n : ℕ) (h : n ≤ cfg10.N) (hz : n ≠ 0) :
    Phi10 V c n h = iprop(owns (c : Thread nD τ) scr10_0 fullShare (accAt10 V c (n - 1) (by omega)).1 ∗ owns (c : Thread nD τ) scr10_1 fullShare (accAt10 V c (n - 1) (by omega)).2
      ∗ Pipeline.scopedRestBut spec10 c [cc10_scratch0, cc10_scratch1] ∗ ∃ r, prngReg c r) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => k10_pay6 (accAt10 V c t.val t.isLt).1 (accAt10 V c t.val t.isLt).2 (iblk10 V c 2 t) (iblk10 V c 3 t)
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi10_zero (c : Dev nD) : (dat10 V c).Φ 0 = Pipeline.ΦA spec10 c := rfl
theorem owed10 (c : Dev nD) (t : Fin (cfg10.N + 1)) : (dat10 V c).owed t = 0 := rfl
theorem share10 (c : Dev nD) (w : Fin cfg10.W) : (dat10 V c).q w = fullShare := rfl
theorem recorded10 (c : Dev nD) : (dat10 V c).recorded 0 = Set.univ := rfl

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = k10_pay6 (accAt10 V c t.val t.isLt).1 (accAt10 V c t.val t.isLt).2 (iblk10 V c 2 t) (iblk10 V c 3 t) := by dsimp only [dat10]

theorem after10_4_last (c : Dev nD) (t : Fin cfg10.N) (ht : t.val = 19) :
    (dat10 V c).after 4 t = k10_pay6 (accAt10 V c t.val t.isLt).1 (accAt10 V c t.val t.isLt).2 (iblk10 V c 2 t) (iblk10 V c 3 t) :=
  after10_4 V c t

theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

theorem live10_0 : ∀ t : Fin cfg10.N, cfg10.idle 0 (grid10.coords t) = false := fun _ => rfl
theorem live10_1 : ∀ t : Fin cfg10.N, cfg10.idle 1 (grid10.coords t) = false := fun _ => rfl
theorem live10_2 : ∀ t : Fin cfg10.N, cfg10.idle 2 (grid10.coords t) = false := fun _ => rfl
theorem live10_3 : ∀ t : Fin cfg10.N, cfg10.idle 3 (grid10.coords t) = false := fun _ => rfl

theorem idle10_4 : ∀ t : Fin cfg10.N, ¬ cond10_1 (grid10.coords t) → cfg10.idle 4 (grid10.coords t) = true := by decide +kernel
theorem noFlush10_4 : ∀ t : Fin cfg10.N, ¬ cond10_1 (grid10.coords t) → (cfg10.win 4).flush t = false := by decide +kernel
theorem live10_4 : ∀ t : Fin cfg10.N, cond10_1 (grid10.coords t) → cfg10.idle 4 (grid10.coords t) = false := by decide +kernel

def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

def bodyPost10 (c : Dev nD) (t : Fin cfg10.N) : sProp 𝕄 :=
  iprop((dat10 V c).Φ t.succ ∗ (dat10 V c).owesAt () t.succ
    ∗ (dat10 V c).leavesExact 0 t
    ∗ (dat10 V c).leavesExact 1 t
    ∗ (dat10 V c).leavesExact 2 t
    ∗ (dat10 V c).leavesExact 3 t
    ∗ (dat10 V c).leavesExact 4 t)

set_option maxHeartbeats 4000000 in

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).owesAt () t.succ = (dat10 V c).owesAt () t.castSucc from rfl]
  rw [show (dat10 V c).Φ t.succ = Phi10 V c (t.val + 1) t.isLt from rfl, Phi10_succ]
  rw [show (dat10 V c).leavesExact 0 t = owns (c : Thread nD τ) (st10_0 t) fullShare ((dat10 V c).after 0 t) from by
    unfold Dat.leavesExact; rw [live10_0 t], after10_0]
  rw [show (dat10 V c).leavesExact 1 t = owns (c : Thread nD τ) (st10_1 t) fullShare ((dat10 V c).after 1 t) from by
    unfold Dat.leavesExact; rw [live10_1 t], after10_1]
  rw [show (dat10 V c).leavesExact 2 t = owns (c : Thread nD τ) (st10_2 t) fullShare ((dat10 V c).after 2 t) from by
    unfold Dat.leavesExact; rw [live10_2 t], after10_2]
  rw [show (dat10 V c).leavesExact 3 t = owns (c : Thread nD τ) (st10_3 t) fullShare ((dat10 V c).after 3 t) from by
    unfold Dat.leavesExact; rw [live10_3 t], after10_3]
  have hN : t.val < 20 := lt_of_lt_of_eq t.isLt (show cfg10.N = 20 from N_10)
  by_cases h0 : t.val = 0
  · have hc0 : cond10_0 (grid10.coords t) := (hcond10_0 t).mpr h0
    have hc1 : ¬ cond10_1 (grid10.coords t) := fun h => by have h19 := (hcond10_1 t).mp h; omega
    rw [Dat.leavesExact_idle (dat10 V c) 4 t (idle10_4 t hc1) (noFlush10_4 t hc1)]
    rw [Phi10_castSucc V c t, Phi10_first V c _ _ h0, PhiA10_eq, accAt10_first V c t h0]
    dsimp only
    iintro ⟨⟨⟨⟨H6, H7⟩, HR⟩, Hg⟩, Ho, ⟨%d0, H0⟩, ⟨%d1, H1⟩, ⟨%d2, H2⟩, ⟨%d3, H3⟩, ⟨%d4, H4⟩⟩
    iapply (poolRun_A c Set.univ (grid10.coords t) _ _ _ _ _ _ _ _ _ _ _ _ _ _ hc0 hc1
      (iblk10 V c 0 t) (iblk10 V c 1 t) (iblk10 V c 2 t) (iblk10 V c 3 t) ((dat10 V c).before 4 t d4) _)
    iframe H0 H1 H2 H3 H4 H6 H7
    iintro ⟨H0, H1, H2, H3, H4, H6, H7⟩
    iframe
    iexists _; iexact H4
  · rw [Phi10_castSucc V c t, Phi10_pos V c _ _ h0, accAt10_next V c t h0]
    dsimp only
    have hc0 : ¬ cond10_0 (grid10.coords t) := fun h => h0 ((hcond10_0 t).mp h)
    by_cases h19 : t.val = 19
    · have hc1 : cond10_1 (grid10.coords t) := (hcond10_1 t).mpr h19
      rw [show (dat10 V c).leavesExact 4 t = owns (c : Thread nD τ) (st10_4 t) fullShare ((dat10 V c).after 4 t) from by
        unfold Dat.leavesExact; rw [live10_4 t hc1], after10_4, accAt10_next V c t h0]
      dsimp only
      iintro ⟨⟨H6, H7, HR, Hg⟩, Ho, ⟨%d0, H0⟩, ⟨%d1, H1⟩, ⟨%d2, H2⟩, ⟨%d3, H3⟩, ⟨%d4, H4⟩⟩
      iapply (poolRun_C c Set.univ (grid10.coords t) _ _ _ _ _ _ _ _ _ _ _ _ _ _ hc0 hc1
        (iblk10 V c 0 t) (iblk10 V c 1 t) (iblk10 V c 2 t) (iblk10 V c 3 t)
        (accAt10 V c (t.val - 1) (Nat.lt_of_le_of_lt (Nat.sub_le _ _) t.isLt)).1
        (accAt10 V c (t.val - 1) (Nat.lt_of_le_of_lt (Nat.sub_le _ _) t.isLt)).2 _)
      iframe H0 H1 H2 H3 H6 H7
      isplitl [H4]; · iexists _; iexact H4
      iintro ⟨H0, H1, H2, H3, H4, H6, H7⟩
      iframe
    · have hc1 : ¬ cond10_1 (grid10.coords t) := fun h => h19 ((hcond10_1 t).mp h)
      rw [Dat.leavesExact_idle (dat10 V c) 4 t (idle10_4 t hc1) (noFlush10_4 t hc1)]
      iintro ⟨⟨H6, H7, HR, Hg⟩, Ho, ⟨%d0, H0⟩, ⟨%d1, H1⟩, ⟨%d2, H2⟩, ⟨%d3, H3⟩, ⟨%d4, H4⟩⟩
      iapply (poolRun_B c Set.univ (grid10.coords t) _ _ _ _ _ _ _ _ _ _ _ _ _ _ hc0 hc1
        (iblk10 V c 0 t) (iblk10 V c 1 t) (iblk10 V c 2 t) (iblk10 V c 3 t) ((dat10 V c).before 4 t d4)
        (accAt10 V c (t.val - 1) (Nat.lt_of_le_of_lt (Nat.sub_le _ _) t.isLt)).1
        (accAt10 V c (t.val - 1) (Nat.lt_of_le_of_lt (Nat.sub_le _ _) t.isLt)).2 _)
      iframe H0 H1 H2 H3 H4 H6 H7
      iintro ⟨H0, H1, H2, H3, H4, H6, H7⟩
      iframe
      iexists _; iexact H4

theorem body_obligation10 (c : Dev nD) : BodyObligation (dat10 (F := F) V c) (defs₀ (F := F)) Variants.none () Set.univ := fun t => by
  rw [bigSep_W10, bigSep_W10]
  exact sound_body10 V c t

theorem hout10 (c : Dev nD) : (dat10 V c).Φ (Fin.last cfg10.N) ⊢ (Pipeline.ΦA spec10 c : sProp 𝕄) := by
  have hN : cfg10.N ≠ 0 := by rw [show cfg10.N = 20 from N_10]; decide
  rw [show (dat10 V c).Φ (Fin.last cfg10.N) = Phi10 V c cfg10.N (Nat.le_refl _) from rfl, Phi10_pos V c _ _ hN, PhiA10_eq]
  iintro ⟨H6, H7, HR, Hg⟩
  isplitl [H6 H7 HR]
  · isplitl [H6 H7]
    · isplitl [H6]
      · iexists _; iexact H6
      iexists _; iexact H7
    iexact HR
  iexact Hg

end Cert.KernelIdeal.Gen

end
-- ==== Proof.KI.Run1.lean ====
import proofs.«419567_j13065290514766_1_alg».proof.Proof.KI.Mm0
import proofs.«419567_j13065290514766_1_alg».proof.Proof.KI.Br1
import proofs.«419567_j13065290514766_1_alg».proof.Proof.KI.Mm2
import proofs.«419567_j13065290514766_1_alg».proof.Proof.KI.Br3
import proofs.«419567_j13065290514766_1_alg».proof.Proof.KI.Mm4
import proofs.«419567_j13065290514766_1_alg».proof.Proof.KI.Br5
import proofs.«419567_j13065290514766_1_alg».proof.Proof.KI.Mm6
import proofs.«419567_j13065290514766_1_alg».proof.Proof.KI.Br7
import proofs.«419567_j13065290514766_1_alg».proof.Proof.KI.Mm8
import proofs.«419567_j13065290514766_1_alg».proof.Proof.KI.Br9
import proofs.«419567_j13065290514766_1_alg».proof.Proof.KI.Pool
import proofs.«419567_j13065290514766_1_alg».proof.Proof.LibRegionKeep

noncomputable section

namespace Cert.KernelIdeal.Gen

open Idealize.ShloMosaic Idealize.ShloMosaic.TcCoe

variable {F : FTy → Type} [FloatOps F]

variable (m : (ℓ : Loc nD τ sig) → Buf (Elt F) ℓ) (ρ : Dev nD → PrngReg)

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
abbrev W2 : Dev nD → Valuation τ sig (Elt F) := fun c => StableHlo.after hostOps0_1 (W1 m ρ c)
abbrev V2 : (c : Dev nD) → (b : Ref sig .tc) → Buf (Elt F) ((c : Thread nD τ).loc b) := fun c b => W2 m ρ c b
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
abbrev V4 : (c : Dev nD) → (b : Ref sig .tc) → Buf (Elt F) ((c : Thread nD τ).loc b) := fun c b => W4 m ρ c b
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec1 c (W5 m ρ c) fun w => (dat1 (V5 m ρ) c).arrAt w cfg1.N
abbrev V6 : (c : Dev nD) → (b : Ref sig .tc) → Buf (Elt F) ((c : Thread nD τ).loc b) := fun c b => W6 m ρ c b
def W7 (c : Dev nD) : Valuation τ sig (Elt F) :=
  Pipeline.withArrays spec2 c (W6 m ρ c) fun w => (dat2 (V6 m ρ) c).arrAt w cfg2.N
abbrev V7 : (c : Dev nD) → (b : Ref sig .tc) → Buf (Elt F) ((c : Thread nD τ).loc b) := fun c b => W7 m ρ c b
abbrev W8 : Dev nD → Valuation τ sig (Elt F) := fun c => StableHlo.after hostOps3 (W7 m ρ c)
abbrev V8 : (c : Dev nD) → (b : Ref sig .tc) → Buf (Elt F) ((c : Thread nD τ).loc b) := fun c b => W8 m ρ c b
def W9 (c : Dev nD) : Valuation τ sig (Elt F) :=
  Pipeline.withArrays spec3 c (W8 m ρ c) fun w => (dat3 (V8 m ρ) c).arrAt w cfg3.N
abbrev V9 : (c : Dev nD) → (b : Ref sig .tc) → Buf (Elt F) ((c : Thread nD τ).loc b) := fun c b => W9 m ρ c b
def W10 (c : Dev nD) : Valuation τ sig (Elt F) :=
  Pipeline.withArrays spec4 c (W9 m ρ c) fun w => (dat4 (V9 m ρ) c).arrAt w cfg4.N
abbrev V10 : (c : Dev nD) → (b : Ref sig .tc) → Buf (Elt F) ((c : Thread nD τ).loc b) := fun c b => W10 m ρ c b
abbrev W11 : Dev nD → Valuation τ sig (Elt F) := fun c => StableHlo.after hostOps5 (W10 m ρ c)
abbrev V11 : (c : Dev nD) → (b : Ref sig .tc) → Buf (Elt F) ((c : Thread nD τ).loc b) := fun c b => W11 m ρ c b
def W12 (c : Dev nD) : Valuation τ sig (Elt F) :=
  Pipeline.withArrays spec5 c (W11 m ρ c) fun w => (dat5 (V11 m ρ) c).arrAt w cfg5.N
abbrev V12 : (c : Dev nD) → (b : Ref sig .tc) → Buf (Elt F) ((c : Thread nD τ).loc b) := fun c b => W12 m ρ c b
def W13 (c : Dev nD) : Valuation τ sig (Elt F) :=
  Pipeline.withArrays spec6 c (W12 m ρ c) fun w => (dat6 (V12 m ρ) c).arrAt w cfg6.N
abbrev V13 : (c : Dev nD) → (b : Ref sig .tc) → Buf (Elt F) ((c : Thread nD τ).loc b) := fun c b => W13 m ρ c b
abbrev W14 : Dev nD → Valuation τ sig (Elt F) := fun c => StableHlo.after hostOps7 (W13 m ρ c)
abbrev V14 : (c : Dev nD) → (b : Ref sig .tc) → Buf (Elt F) ((c : Thread nD τ).loc b) := fun c b => W14 m ρ c b
def W15 (c : Dev nD) : Valuation τ sig (Elt F) :=
  Pipeline.withArrays spec7 c (W14 m ρ c) fun w => (dat7 (V14 m ρ) c).arrAt w cfg7.N
abbrev V15 : (c : Dev nD) → (b : Ref sig .tc) → Buf (Elt F) ((c : Thread nD τ).loc b) := fun c b => W15 m ρ c b
def W16 (c : Dev nD) : Valuation τ sig (Elt F) :=
  Pipeline.withArrays spec8 c (W15 m ρ c) fun w => (dat8 (V15 m ρ) c).arrAt w cfg8.N
abbrev V16 : (c : Dev nD) → (b : Ref sig .tc) → Buf (Elt F) ((c : Thread nD τ).loc b) := fun c b => W16 m ρ c b
abbrev W17 : Dev nD → Valuation τ sig (Elt F) := fun c => StableHlo.after hostOps9 (W16 m ρ c)
abbrev V17 : (c : Dev nD) → (b : Ref sig .tc) → Buf (Elt F) ((c : Thread nD τ).loc b) := fun c b => W17 m ρ c b
def W18 (c : Dev nD) : Valuation τ sig (Elt F) :=
  Pipeline.withArrays spec9 c (W17 m ρ c) fun w => (dat9 (V17 m ρ) c).arrAt w cfg9.N
abbrev V18 : (c : Dev nD) → (b : Ref sig .tc) → Buf (Elt F) ((c : Thread nD τ).loc b) := fun c b => W18 m ρ c b
abbrev W19 : Dev nD → Valuation τ sig (Elt F) := fun c => StableHlo.after hostOps10 (W18 m ρ c)
abbrev V19 : (c : Dev nD) → (b : Ref sig .tc) → Buf (Elt F) ((c : Thread nD τ).loc b) := fun c b => W19 m ρ c b
def W20 (c : Dev nD) : Valuation τ sig (Elt F) :=
  Pipeline.withArrays spec10 c (W19 m ρ c) fun w => (dat10 (V19 m ρ) c).arrAt w cfg10.N
abbrev V20 : (c : Dev nD) → (b : Ref sig .tc) → Buf (Elt F) ((c : Thread nD τ).loc b) := fun c b => W20 m ρ c b

local macro "writes_in_list" : tactic => `(tactic|
  (simp only [List.Forall]
   repeat' apply And.intro
   all_goals
     simp only [StableHlo.nullary_writes, StableHlo.unary_writes, StableHlo.binary_writes, StableHlo.ternary_writes,
       StableHlo.quaternary_writes, StableHlo.reshape_writes, StableHlo.binaryIndexed_writes, StableHlo.unaryIndexed_writes,
       StableHlo.nary_writes, Finset.singleton_subset_iff, List.mem_toFinset]
     exact List.mem_map_of_mem (by decide)))

abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem W1_of (c : Dev nD) (r : Ref sig .tc) (h : r ∉ hostOps0_W) : W1 m ρ c (Proc.devRef .tc r) = W0 m ρ c (Proc.devRef .tc r) :=
  StableHlo.after_of_writes_sub hostOps0 _ (by writes_in_list) h
abbrev hostOps0_1_W : List (Ref sig .tc) := [main_call0_v0, main_call0_v1, main_v14]
theorem W2_of (c : Dev nD) (r : Ref sig .tc) (h : r ∉ hostOps0_1_W) : W2 m ρ c (Proc.devRef .tc r) = W1 m ρ c (Proc.devRef .tc r) :=
  StableHlo.after_of_writes_sub hostOps0_1 _ (by writes_in_list) h
abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30]
theorem W3_of (c : Dev nD) (r : Ref sig .tc) (h : r ∉ hostOps0_2_W) : W3 m ρ c (Proc.devRef .tc r) = W2 m ρ c (Proc.devRef .tc r) :=
  StableHlo.after_of_writes_sub hostOps0_2 _ (by writes_in_list) h
abbrev hostOps1_W : List (Ref sig .tc) := [main_c_6, main_v32, main_v33, main_c_7, main_v34, main_v35, main_v36, main_v37, main_v38, main_v39, main_v40, main_cst_8, main_v41, main_v42, main_v43, main_v44]
theorem W5_of (c : Dev nD) (r : Ref sig .tc) (h : r ∉ hostOps1_W) : W5 m ρ c (Proc.devRef .tc r) = W4 m ρ c (Proc.devRef .tc r) :=
  StableHlo.after_of_writes_sub hostOps1 _ (by writes_in_list) h
abbrev hostOps3_W : List (Ref sig .tc) := [main_c_9, main_v47, main_v48, main_c_10, main_v49, main_v50, main_v51, main_v52, main_v53, main_v54, main_v55, main_cst_11, main_v56, main_v57, main_v58, main_v59]
theorem W8_of (c : Dev nD) (r : Ref sig .tc) (h : r ∉ hostOps3_W) : W8 m ρ c (Proc.devRef .tc r) = W7 m ρ c (Proc.devRef .tc r) :=
  StableHlo.after_of_writes_sub hostOps3 _ (by writes_in_list) h
abbrev hostOps5_W : List (Ref sig .tc) := [main_c_12, main_v62, main_v63, main_c_13, main_v64, main_v65, main_v66, main_v67, main_v68, main_v69, main_v70, main_cst_14, main_v71, main_v72, main_v73, main_v74]
theorem W11_of (c : Dev nD) (r : Ref sig .tc) (h : r ∉ hostOps5_W) : W11 m ρ c (Proc.devRef .tc r) = W10 m ρ c (Proc.devRef .tc r) :=
  StableHlo.after_of_writes_sub hostOps5 _ (by writes_in_list) h
abbrev hostOps7_W : List (Ref sig .tc) := [main_c_15, main_v77, main_v78, main_c_16, main_v79, main_v80, main_v81, main_v82, main_v83, main_v84, main_v85, main_cst_17, main_v86, main_v87, main_v88, main_v89]
theorem W14_of (c : Dev nD) (r : Ref sig .tc) (h : r ∉ hostOps7_W) : W14 m ρ c (Proc.devRef .tc r) = W13 m ρ c (Proc.devRef .tc r) :=
  StableHlo.after_of_writes_sub hostOps7 _ (by writes_in_list) h
abbrev hostOps9_W : List (Ref sig .tc) := [main_c_18, main_v92, main_v93, main_c_19, main_v94, main_v95, main_v96, main_v97, main_v98, main_v99, main_v100, main_cst_20, main_v101, main_v102, main_v103, main_v104]
theorem W17_of (c : Dev nD) (r : Ref sig .tc) (h : r ∉ hostOps9_W) : W17 m ρ c (Proc.devRef .tc r) = W16 m ρ c (Proc.devRef .tc r) :=
  StableHlo.after_of_writes_sub hostOps9 _ (by writes_in_list) h
abbrev hostOps10_W : List (Ref sig .tc) := [main_v106, main_v107]
theorem W19_of (c : Dev nD) (r : Ref sig .tc) (h : r ∉ hostOps10_W) : W19 m ρ c (Proc.devRef .tc r) = W18 m ρ c (Proc.devRef .tc r) :=
  StableHlo.after_of_writes_sub hostOps10 _ (by writes_in_list) h

theorem W4_arr (c : Dev nD) (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_keep (c : Dev nD) (r : Ref sig .tc) (h : r ≠ main_v31) :
    W4 m ρ c (Proc.devRef .tc r) = W3 m ρ c (Proc.devRef .tc r) :=
  LibRegion.withArrays_keep (dat0 (V3 m ρ) c) launch0.win.arr_inj _ (A_eq0 (V3 m ρ) c) main_v31 (by decide) r h
theorem W6_arr (c : Dev nD) (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_keep (c : Dev nD) (r : Ref sig .tc) (h : r ≠ main_v45) :
    W6 m ρ c (Proc.devRef .tc r) = W5 m ρ c (Proc.devRef .tc r) :=
  LibRegion.withArrays_keep (dat1 (V5 m ρ) c) launch1.win.arr_inj _ (A_eq1 (V5 m ρ) c) main_v45 (by decide) r h
theorem W7_arr (c : Dev nD) (w : Fin cfg2.W) :
    W7 m ρ c (Proc.devRef .tc (Pipeline.arrRef spec2 w)) = (dat2 (V6 m ρ) c).arrAt w cfg2.N :=
  Pipeline.withArrays_arr spec2 launch2.win.arr_inj c _ _ w
theorem W7_keep (c : Dev nD) (r : Ref sig .tc) (h : r ≠ main_v46) :
    W7 m ρ c (Proc.devRef .tc r) = W6 m ρ c (Proc.devRef .tc r) :=
  LibRegion.withArrays_keep (dat2 (V6 m ρ) c) launch2.win.arr_inj _ (A_eq2 (V6 m ρ) c) main_v46 (by decide) r h
theorem W9_arr (c : Dev nD) (w : Fin cfg3.W) :
    W9 m ρ c (Proc.devRef .tc (Pipeline.arrRef spec3 w)) = (dat3 (V8 m ρ) c).arrAt w cfg3.N :=
  Pipeline.withArrays_arr spec3 launch3.win.arr_inj c _ _ w
theorem W9_keep (c : Dev nD) (r : Ref sig .tc) (h : r ≠ main_v60) :
    W9 m ρ c (Proc.devRef .tc r) = W8 m ρ c (Proc.devRef .tc r) :=
  LibRegion.withArrays_keep (dat3 (V8 m ρ) c) launch3.win.arr_inj _ (A_eq3 (V8 m ρ) c) main_v60 (by decide) r h
theorem W10_arr (c : Dev nD) (w : Fin cfg4.W) :
    W10 m ρ c (Proc.devRef .tc (Pipeline.arrRef spec4 w)) = (dat4 (V9 m ρ) c).arrAt w cfg4.N :=
  Pipeline.withArrays_arr spec4 launch4.win.arr_inj c _ _ w
theorem W10_keep (c : Dev nD) (r : Ref sig .tc) (h : r ≠ main_v61) :
    W10 m ρ c (Proc.devRef .tc r) = W9 m ρ c (Proc.devRef .tc r) :=
  LibRegion.withArrays_keep (dat4 (V9 m ρ) c) launch4.win.arr_inj _ (A_eq4 (V9 m ρ) c) main_v61 (by decide) r h
theorem W12_arr (c : Dev nD) (w : Fin cfg5.W) :
    W12 m ρ c (Proc.devRef .tc (Pipeline.arrRef spec5 w)) = (dat5 (V11 m ρ) c).arrAt w cfg5.N :=
  Pipeline.withArrays_arr spec5 launch5.win.arr_inj c _ _ w
theorem W12_keep (c : Dev nD) (r : Ref sig .tc) (h : r ≠ main_v75) :
    W12 m ρ c (Proc.devRef .tc r) = W11 m ρ c (Proc.devRef .tc r) :=
  LibRegion.withArrays_keep (dat5 (V11 m ρ) c) launch5.win.arr_inj _ (A_eq5 (V11 m ρ) c) main_v75 (by decide) r h
theorem W13_arr (c : Dev nD) (w : Fin cfg6.W) :
    W13 m ρ c (Proc.devRef .tc (Pipeline.arrRef spec6 w)) = (dat6 (V12 m ρ) c).arrAt w cfg6.N :=
  Pipeline.withArrays_arr spec6 launch6.win.arr_inj c _ _ w
theorem W13_keep (c : Dev nD) (r : Ref sig .tc) (h : r ≠ main_v76) :
    W13 m ρ c (Proc.devRef .tc r) = W12 m ρ c (Proc.devRef .tc r) :=
  LibRegion.withArrays_keep (dat6 (V12 m ρ) c) launch6.win.arr_inj _ (A_eq6 (V12 m ρ) c) main_v76 (by decide) r h
theorem W15_arr (c : Dev nD) (w : Fin cfg7.W) :
    W15 m ρ c (Proc.devRef .tc (Pipeline.arrRef spec7 w)) = (dat7 (V14 m ρ) c).arrAt w cfg7.N :=
  Pipeline.withArrays_arr spec7 launch7.win.arr_inj c _ _ w
theorem W15_keep (c : Dev nD) (r : Ref sig .tc) (h : r ≠ main_v90) :
    W15 m ρ c (Proc.devRef .tc r) = W14 m ρ c (Proc.devRef .tc r) :=
  LibRegion.withArrays_keep (dat7 (V14 m ρ) c) launch7.win.arr_inj _ (A_eq7 (V14 m ρ) c) main_v90 (by decide) r h
theorem W16_arr (c : Dev nD) (w : Fin cfg8.W) :
    W16 m ρ c (Proc.devRef .tc (Pipeline.arrRef spec8 w)) = (dat8 (V15 m ρ) c).arrAt w cfg8.N :=
  Pipeline.withArrays_arr spec8 launch8.win.arr_inj c _ _ w
theorem W16_keep (c : Dev nD) (r : Ref sig .tc) (h : r ≠ main_v91) :
    W16 m ρ c (Proc.devRef .tc r) = W15 m ρ c (Proc.devRef .tc r) :=
  LibRegion.withArrays_keep (dat8 (V15 m ρ) c) launch8.win.arr_inj _ (A_eq8 (V15 m ρ) c) main_v91 (by decide) r h
theorem W18_arr (c : Dev nD) (w : Fin cfg9.W) :
    W18 m ρ c (Proc.devRef .tc (Pipeline.arrRef spec9 w)) = (dat9 (V17 m ρ) c).arrAt w cfg9.N :=
  Pipeline.withArrays_arr spec9 launch9.win.arr_inj c _ _ w
theorem W18_keep (c : Dev nD) (r : Ref sig .tc) (h : r ≠ main_v105) :
    W18 m ρ c (Proc.devRef .tc r) = W17 m ρ c (Proc.devRef .tc r) :=
  LibRegion.withArrays_keep (dat9 (V17 m ρ) c) launch9.win.arr_inj _ (A_eq9 (V17 m ρ) c) main_v105 (by decide) r h
theorem W20_arr (c : Dev nD) (w : Fin cfg10.W) :
    W20 m ρ c (Proc.devRef .tc (Pipeline.arrRef spec10 w)) = (dat10 (V19 m ρ) c).arrAt w cfg10.N :=
  Pipeline.withArrays_arr spec10 launch10.win.arr_inj c _ _ w
theorem W20_keep (c : Dev nD) (r : Ref sig .tc) (h : r ≠ main_v108) :
    W20 m ρ c (Proc.devRef .tc r) = W19 m ρ c (Proc.devRef .tc r) :=
  LibRegion.withArrays_keep (dat10 (V19 m ρ) c) launch10.win.arr_inj _ (A_eq10 (V19 m ρ) c) main_v108 (by decide) r h

theorem W20_out (c : Dev nD) : W20 m ρ c (Proc.devRef .tc main_v108) = (dat10 (V19 m ρ) c).arrAt 4 cfg10.N :=
  W20_arr m ρ c 4

/-- No item of the program writes `r`: it is no stretch's result and no region's output array. -/
abbrev Untouched (r : Ref sig .tc) : Prop :=
  r ∉ hostOps0_W ∧ r ∉ hostOps0_1_W ∧ r ∉ hostOps0_2_W ∧ r ≠ main_v31 ∧ r ∉ hostOps1_W ∧ r ≠ main_v45 ∧ r ≠ main_v46
    ∧ r ∉ hostOps3_W ∧ r ≠ main_v60 ∧ r ≠ main_v61 ∧ r ∉ hostOps5_W ∧ r ≠ main_v75 ∧ r ≠ main_v76 ∧ r ∉ hostOps7_W
    ∧ r ≠ main_v90 ∧ r ≠ main_v91 ∧ r ∉ hostOps9_W ∧ r ≠ main_v105 ∧ r ∉ hostOps10_W ∧ r ≠ main_v108

/-- A reference no item writes holds at the end what the launch memory held: the twenty steps composed. -/
theorem W20_launch (c : Dev nD) (r : Ref sig .tc) (h : Untouched r) :
    W20 m ρ c (Proc.devRef .tc r) = m ((c : Thread nD τ).loc r) := by
  obtain ⟨h1, h2, h3, h4, h5, h6, h7, h8, h9, h10, h11, h12, h13, h14, h15, h16, h17, h18, h19, h20⟩ := h
  rw [W20_keep m ρ c r h20, W19_of m ρ c r h19, W18_keep m ρ c r h18, W17_of m ρ c r h17, W16_keep m ρ c r h16,
    W15_keep m ρ c r h15, W14_of m ρ c r h14, W13_keep m ρ c r h13, W12_keep m ρ c r h12, W11_of m ρ c r h11,
    W10_keep m ρ c r h10, W9_keep m ρ c r h9, W8_of m ρ c r h8, W7_keep m ρ c r h7, W6_keep m ρ c r h6,
    W5_of m ρ c r h5, W4_keep m ρ c r h4, W3_of m ρ c r h3, W2_of m ρ c r h2, W1_of m ρ c r h1]

end Cert.KernelIdeal.Gen

end
-- ==== Proof.KI.Run.lean ====
import proofs.«419567_j13065290514766_1_alg».proof.Proof.KI.Run1
import proofs.«419567_j13065290514766_1_alg».proof.Proof.LibRegionSeg

noncomputable section

namespace Cert.KernelIdeal.Gen

open Idealize.ShloMosaic Idealize.ShloMosaic.TcCoe Idealize.SL.BI
open Idealize.ShloMosaic.Pipeline (Dat)
open LibRegion (regionSeg hostSeg)

variable {F : FTy → Type} [FloatOps F]

variable (m : (ℓ : Loc nD τ sig) → Buf (Elt F) ℓ) (ρ : Dev nD → PrngReg)

/-- Every pipeline's proof data, each taken at the contents its region is entered from. -/
def pdats : (p : Fin 11) → (c : Dev nD) → Dat τ (Elt F) Unit ℕ (UR sig nD τ) ℕ (cfgs p) c
  | ⟨0, _⟩ => dat0 (V3 m ρ)
  | ⟨1, _⟩ => dat1 (V5 m ρ)
  | ⟨2, _⟩ => dat2 (V6 m ρ)
  | ⟨3, _⟩ => dat3 (V8 m ρ)
  | ⟨4, _⟩ => dat4 (V9 m ρ)
  | ⟨5, _⟩ => dat5 (V11 m ρ)
  | ⟨6, _⟩ => dat6 (V12 m ρ)
  | ⟨7, _⟩ => dat7 (V14 m ρ)
  | ⟨8, _⟩ => dat8 (V15 m ρ)
  | ⟨9, _⟩ => dat9 (V17 m ρ)
  | ⟨10, _⟩ => dat10 (V19 m ρ)

/-- The twenty items in program order, each between its two valuations. -/
abbrev segs : List (Pipeline.Seg (pcfgs (F := F)) (LibRegion.adm cfgs) (pdats m ρ) () defs₀ Variants.none (fun _ => ∅) fun _ _ => 0) :=
  [
    .host (hostSeg cfgs defs₀ hostOps0 hostOps0_sub (W0 m ρ)),
    .host (hostSeg cfgs defs₀ hostOps0_1 hostOps0_1_sub (W1 m ρ)),
    .host (hostSeg cfgs defs₀ hostOps0_2 hostOps0_2_sub (W2 m ρ)),
    .region (regionSeg cfgs (pdats m ρ) defs₀ 0 launch0 (W3 m ρ) (fun c => (body_obligation0 (V3 m ρ) c).loose) (A_eq0 (V3 m ρ))),
    .host (hostSeg cfgs defs₀ hostOps1 hostOps1_sub (W4 m ρ)),
    .region (regionSeg cfgs (pdats m ρ) defs₀ 1 launch1 (W5 m ρ) (fun c => (body_obligation1 (V5 m ρ) c).loose) (A_eq1 (V5 m ρ))),
    .region (regionSeg cfgs (pdats m ρ) defs₀ 2 launch2 (W6 m ρ) (fun c => (body_obligation2 (V6 m ρ) c).loose) (A_eq2 (V6 m ρ))),
    .host (hostSeg cfgs defs₀ hostOps3 hostOps3_sub (W7 m ρ)),
    .region (regionSeg cfgs (pdats m ρ) defs₀ 3 launch3 (W8 m ρ) (fun c => (body_obligation3 (V8 m ρ) c).loose) (A_eq3 (V8 m ρ))),
    .region (regionSeg cfgs (pdats m ρ) defs₀ 4 launch4 (W9 m ρ) (fun c => (body_obligation4 (V9 m ρ) c).loose) (A_eq4 (V9 m ρ))),
    .host (hostSeg cfgs defs₀ hostOps5 hostOps5_sub (W10 m ρ)),
    .region (regionSeg cfgs (pdats m ρ) defs₀ 5 launch5 (W11 m ρ) (fun c => (body_obligation5 (V11 m ρ) c).loose) (A_eq5 (V11 m ρ))),
    .region (regionSeg cfgs (pdats m ρ) defs₀ 6 launch6 (W12 m ρ) (fun c => (body_obligation6 (V12 m ρ) c).loose) (A_eq6 (V12 m ρ))),
    .host (hostSeg cfgs defs₀ hostOps7 hostOps7_sub (W13 m ρ)),
    .region (regionSeg cfgs (pdats m ρ) defs₀ 7 launch7 (W14 m ρ) (fun c => (body_obligation7 (V14 m ρ) c).loose) (A_eq7 (V14 m ρ))),
    .region (regionSeg cfgs (pdats m ρ) defs₀ 8 launch8 (W15 m ρ) (fun c => (body_obligation8 (V15 m ρ) c).loose) (A_eq8 (V15 m ρ))),
    .host (hostSeg cfgs defs₀ hostOps9 hostOps9_sub (W16 m ρ)),
    .region (regionSeg cfgs (pdats m ρ) defs₀ 9 launch9 (W17 m ρ) (fun c => (body_obligation9 (V17 m ρ) c).loose) (A_eq9 (V17 m ρ))),
    .host (hostSeg cfgs defs₀ hostOps10 hostOps10_sub (W18 m ρ)),
    .region (regionSeg cfgs (pdats m ρ) defs₀ 10 launch10 (W19 m ρ) (fun c => (body_obligation10 (V19 m ρ) c).loose) (A_eq10 (V19 m ρ))
      (owed10 (V19 m ρ)) (recorded10 (V19 m ρ)) (share10 (V19 m ρ)) (Phi10_zero (V19 m ρ)) (hout10 (V19 m ρ))) ]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The entry function is the segments' chain, and consecutive segments meet at the same contents by definition. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W20 m ρ c b) :=
  LibRegion.run_held cfgs (pdats m ρ) cellOf_inj defs₀ m ρ main (segs m ρ)
    (fun c => by rw [main_chain c, Pipeline.Seg.run_eq_chain]; rfl)
    (by simp only [segs, Pipeline.Seg.pipes_host, Pipeline.Seg.pipes_region, Pipeline.Seg.pipes_nil]; decide)
    (W20 m ρ)
    ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl⟩

/-- A reference the thread state holds and no item writes ends as launched. -/
theorem launch_kept {r : PUnit × MemSt nD τ sig (Elt F)}
    (h : ∀ c : Dev nD, ∀ b ∈ Pipeline.ucRefs τ sig, r.2.mem (((c : Thread nD τ)).1, b) = W20 m ρ c b) (c : Dev nD)
    (b : Ref sig .tc) (hs : ¬ (Proc.devRef .tc b : DevRef τ sig).isScoped) (hu : Untouched b) :
    r.2.mem ((c : Thread nD τ).loc b) = m ((c : Thread nD τ).loc b) :=
  (h c _ (mem_uc b hs)).trans (W20_launch m ρ c b hu)

/-- info: 'Cert.KernelIdeal.Gen.run_all' depends on axioms: [propext, Classical.choice, Quot.sound] -/
#guard_msgs in #print axioms run_all

end Cert.KernelIdeal.Gen

end
-- ==== Proof.RefSpec.lean ====
import proofs.«419567_j13065290514766_1_alg».proof.Proof.Ref.Run

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

def srcOf (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

def dstOf (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

def wrap (s : IVec S1700000 32) : IVec S1700000 32 :=
  select (cmpi .slt s (broadcastInDim S1700000 ![] bcast_S_S1700000 (constantI S_ 32 0#32))) (addi s (broadcastInDim S1700000 ![] bcast_S_S1700000 (constantI S_ 32 100000#32))) s

def degOf (dst : IVec S1700000 32) : FVec F S100000 .f32 :=
  Host.scatterAdd scatter_S100000_S1700000x1_S1700000_n_0_0_1 (broadcastInDim S100000 ![] bcast_S_S100000 (constant S_ .f32 0x00000000#32)) (broadcastInDim S1700000x1 ![0] bcast_S1700000_S1700000x1_0 dst) (broadcastInDim S1700000 ![] bcast_S_S1700000 (constant S_ .f32 0x3F800000#32))

def dinvOf (dst : IVec S1700000 32) : FVec F S100000 .f32 :=
  select (cmpf (F := F) .ogt (degOf (F := F) dst) (broadcastInDim S100000 ![] bcast_S_S100000 (constant S_ .f32 0x00000000#32))) (Host.rsqrt (degOf (F := F) dst)) (broadcastInDim S100000 ![] bcast_S_S100000 (id (constant S_ .f32 0x00000000#32)))

def normOf (src dst : IVec S1700000 32) : FVec F S1700000x1 .f32 :=
  broadcastInDim S1700000x1 ![0] bcast_S1700000_S1700000x1_0 (mulf (Host.gather gather_S100000_S1700000x1_S1700000_n_0_n_n_0_1_1 (dinvOf (F := F) dst) (broadcastInDim S1700000x1 ![0] bcast_S1700000_S1700000x1_0 (wrap src))) (Host.gather gather_S100000_S1700000x1_S1700000_n_0_n_n_0_1_1 (dinvOf (F := F) dst) (broadcastInDim S1700000x1 ![0] bcast_S1700000_S1700000x1_0 (wrap dst))))

def aggA (ht : FVec F S100000x128 .f32) (src dst : IVec S1700000 32) (nrm : FVec F S1700000x1 .f32) : FVec F S100000x128 .f32 :=
  Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 dst) (mulf (Host.gather gather_S100000x128_S1700000x1_S1700000x128_1_0_n_n_0_1_1128 ht (broadcastInDim S1700000x1 ![0] bcast_S1700000_S1700000x1_0 (wrap src))) (broadcastInDim S1700000x128 ![0, 1] bcast_S1700000x1_S1700000x128_0_1 nrm))

def reluA (a : FVec F S100000x128 .f32) (b1 : FVec F S1x128 .f32) : FVec F S100000x128 .f32 :=
  maximumf (addf a (broadcastInDim S100000x128 ![0, 1] bcast_S1x128_S100000x128_0_1 b1)) (broadcastInDim S100000x128 ![] bcast_S_S100000x128 (constant S_ .f32 0x00000000#32))

def layerA (h : FVec F S100000x128 .f32) (W : FVec F S128x128 .f32) (b : FVec F S128 .f32)
    (src dst : IVec S1700000 32) (nrm : FVec F S1700000x1 .f32) : FVec F S100000x128 .f32 :=
  reluA (aggA (Host.dotGeneral dot_S100000x128_S128x128_S100000x128_1_0_0_1_n_n none h W) src dst nrm) (broadcastInDim S1x128 ![1] bcast_S128_S1x128_1 b)

def aggB (ht : FVec F S100000x64 .f32) (src dst : IVec S1700000 32) (nrm : FVec F S1700000x1 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 ht (broadcastInDim S1700000x1 ![0] bcast_S1700000_S1700000x1_0 (wrap src))) (broadcastInDim S1700000x64 ![0, 1] bcast_S1700000x1_S1700000x64_0_1 nrm))

def reluB (a : FVec F S100000x64 .f32) (b1 : FVec F S1x64 .f32) : FVec F S100000x64 .f32 :=
  maximumf (addf a (broadcastInDim S100000x64 ![0, 1] bcast_S1x64_S100000x64_0_1 b1)) (broadcastInDim S100000x64 ![] bcast_S_S100000x64 (constant S_ .f32 0x00000000#32))

def layerB (h : FVec F S100000x128 .f32) (W : FVec F S128x64 .f32) (b : FVec F S64 .f32)
    (src dst : IVec S1700000 32) (nrm : FVec F S1700000x1 .f32) : FVec F S100000x64 .f32 :=
  reluB (aggB (Host.dotGeneral dot_S100000x128_S128x64_S100000x64_1_0_0_1_n_n none h W) src dst nrm) (broadcastInDim S1x64 ![1] bcast_S64_S1x64_1 b)

def aggC (ht : FVec F S100000x32 .f32) (src dst : IVec S1700000 32) (nrm : FVec F S1700000x1 .f32) : FVec F S100000x32 .f32 :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 dst) (mulf (Host.gather gather_S100000x32_S1700000x1_S1700000x32_1_0_n_n_0_1_132 ht (broadcastInDim S1700000x1 ![0] bcast_S1700000_S1700000x1_0 (wrap src))) (broadcastInDim S1700000x32 ![0, 1] bcast_S1700000x1_S1700000x32_0_1 nrm))

def reluC (a : FVec F S100000x32 .f32) (b1 : FVec F S1x32 .f32) : FVec F S100000x32 .f32 :=
  maximumf (addf a (broadcastInDim S100000x32 ![0, 1] bcast_S1x32_S100000x32_0_1 b1)) (broadcastInDim S100000x32 ![] bcast_S_S100000x32 (constant S_ .f32 0x00000000#32))

def layerC (h : FVec F S100000x64 .f32) (W : FVec F S64x32 .f32) (b : FVec F S32 .f32)
    (src dst : IVec S1700000 32) (nrm : FVec F S1700000x1 .f32) : FVec F S100000x32 .f32 :=
  reluC (aggC (Host.dotGeneral dot_S100000x64_S64x32_S100000x32_1_0_0_1_n_n none h W) src dst nrm) (broadcastInDim S1x32 ![1] bcast_S32_S1x32_1 b)

def poolOf (h : FVec F S100000x32 .f32) (ids : IVec S100000x1 32) (Wfc : FVec F S32x10 .f32) (bfc : FVec F S1x10 .f32) : FVec F S64x10 .f32 :=
  addf (Host.dotGeneral dot_S64x32_S32x10_S64x10_1_0_0_1_n_n none (Host.divf (Host.scatterAdd scatter_S64x32_S100000x1_S100000x32_1_0_0_1 (broadcastInDim S64x32 ![] bcast_S_S64x32 (constant S_ .f32 0x00000000#32)) ids h) (broadcastInDim S64x32 ![0, 1] bcast_S64x1_S64x32_0_1 (broadcastInDim S64x1 ![0] bcast_S64_S64x1_0 (maximumf (Host.scatterAdd scatter_S64_S100000x1_S100000_n_0_0_1 (broadcastInDim S64 ![] bcast_S_S64 (constant S_ .f32 0x00000000#32)) ids (broadcastInDim S100000 ![] bcast_S_S100000 (constant S_ .f32 0x3F800000#32))) (broadcastInDim S64 ![] bcast_S_S64 (constant S_ .f32 0x3F800000#32)))))) Wfc) (broadcastInDim S64x10 ![0, 1] bcast_S1x10_S64x10_0_1 bfc)

def gcn (x : FVec F S100000x128 .f32) (ei : IVec S2x1600000 32) (ids : IVec S100000 32)
    (W1 : FVec F S128x128 .f32) (b1 : FVec F S128 .f32) (W2 : FVec F S128x128 .f32) (b2 : FVec F S128 .f32)
    (W3 : FVec F S128x128 .f32) (b3 : FVec F S128 .f32) (W4 : FVec F S128x64 .f32) (b4 : FVec F S64 .f32)
    (W5 : FVec F S64x32 .f32) (b5 : FVec F S32 .f32) (Wfc : FVec F S32x10 .f32) (bfc : FVec F S10 .f32) : FVec F S64x10 .f32 :=
  poolOf (layerC (layerB (layerA (layerA (layerA x W1 b1 (srcOf ei) (dstOf ei) (normOf (F := F) (srcOf ei) (dstOf ei))) W2 b2 (srcOf ei) (dstOf ei) (normOf (F := F) (srcOf ei) (dstOf ei))) W3 b3 (srcOf ei) (dstOf ei) (normOf (F := F) (srcOf ei) (dstOf ei))) W4 b4 (srcOf ei) (dstOf ei) (normOf (F := F) (srcOf ei) (dstOf ei))) W5 b5 (srcOf ei) (dstOf ei) (normOf (F := F) (srcOf ei) (dstOf ei)))
    (broadcastInDim S100000x1 ![0] bcast_S100000_S100000x1_0 ids) Wfc (broadcastInDim S1x10 ![1] bcast_S10_S1x10_1 bfc)

set_option maxRecDepth 65536 in
set_option maxHeartbeats 4000000 in

theorem res_eq (m : (ℓ : Loc nD τ sig) → Buf (Elt F) ℓ) (c : Dev nD) :
    Cert.ReferenceIdeal.Value.res_main_v131 m c
      = gcn (F := F) (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.Value.res_main_v131 gcn poolOf layerC layerB layerA reluC reluB reluA aggC aggB aggA normOf dinvOf degOf wrap srcOf dstOf
  rfl

end Cert.ReferenceIdeal.Spec

end
-- ==== Proof.KI.HostReads.lean ====
import proofs.«419567_j13065290514766_1_alg».proof.Proof.Gen.KernelIdeal.Launch
import proofs.«419567_j13065290514766_1_alg».proof.Proof.RefSpec
import Idealize.ShloMosaic.Lib.StableHlo.Run

noncomputable section

namespace Cert.KernelIdeal.Gen

open Idealize.ShloMosaic Idealize.ShloMosaic.TcCoe
open Idealize.SL Idealize.SL.Sem

variable {F : FTy → Type} [FloatOps F]

set_option maxHeartbeats 2000000 in

theorem prefix_v3 (Vin : Valuation τ sig (Elt F)) :
    StableHlo.after hostOps0_2 (StableHlo.after hostOps0_1 (StableHlo.after hostOps0 Vin)) (Proc.devRef .tc main_v3)
      = Cert.ReferenceIdeal.Spec.srcOf (Vin (Proc.devRef .tc main_arg1)) := by
  dsimp only [hostOps0, hostOps0_1, hostOps0_2]; after_results_simp <;> rfl

set_option maxHeartbeats 2000000 in

theorem prefix_v6 (Vin : Valuation τ sig (Elt F)) :
    StableHlo.after hostOps0_2 (StableHlo.after hostOps0_1 (StableHlo.after hostOps0 Vin)) (Proc.devRef .tc main_v6)
      = Cert.ReferenceIdeal.Spec.dstOf (Vin (Proc.devRef .tc main_arg1)) := by
  dsimp only [hostOps0, hostOps0_1, hostOps0_2]; after_results_simp <;> rfl

set_option maxHeartbeats 4000000 in

/-- After the opening stretches the weight buffer holds the product of the inverse square roots of the in-degrees at each message's two ends. -/
theorem prefix_v30 (Vin : Valuation τ sig (Elt F)) :
    StableHlo.after hostOps0_2 (StableHlo.after hostOps0_1 (StableHlo.after hostOps0 Vin)) (Proc.devRef .tc main_v30)
      = Cert.ReferenceIdeal.Spec.normOf (F := F) (Cert.ReferenceIdeal.Spec.srcOf (Vin (Proc.devRef .tc main_arg1))) (Cert.ReferenceIdeal.Spec.dstOf (Vin (Proc.devRef .tc main_arg1))) := by
  dsimp only [hostOps0, hostOps0_1, hostOps0_2]; after_results_simp <;> rfl

set_option maxHeartbeats 1000000 in

theorem hostOps1_v43 (Vin : Valuation τ sig (Elt F)) :
    StableHlo.after hostOps1 Vin (Proc.devRef .tc main_v43)
      = Cert.ReferenceIdeal.Spec.aggA (F := F) (Vin (Proc.devRef .tc main_v31)) (Vin (Proc.devRef .tc main_v3)) (Vin (Proc.devRef .tc main_v6)) (Vin (Proc.devRef .tc main_v30)) := by
  dsimp only [hostOps1]; after_results; rfl

theorem hostOps1_v44 (Vin : Valuation τ sig (Elt F)) :
    StableHlo.after hostOps1 Vin (Proc.devRef .tc main_v44) = shapeCast S1x128 (Vin (Proc.devRef .tc main_arg4)) shapeCasts_S128_S1x128 := by
  dsimp only [hostOps1]; after_results; rfl

set_option maxHeartbeats 1000000 in

theorem hostOps3_v58 (Vin : Valuation τ sig (Elt F)) :
    StableHlo.after hostOps3 Vin (Proc.devRef .tc main_v58)
      = Cert.ReferenceIdeal.Spec.aggA (F := F) (Vin (Proc.devRef .tc main_v46)) (Vin (Proc.devRef .tc main_v3)) (Vin (Proc.devRef .tc main_v6)) (Vin (Proc.devRef .tc main_v30)) := by
  dsimp only [hostOps3]; after_results; rfl

theorem hostOps3_v59 (Vin : Valuation τ sig (Elt F)) :
    StableHlo.after hostOps3 Vin (Proc.devRef .tc main_v59) = shapeCast S1x128 (Vin (Proc.devRef .tc main_arg6)) shapeCasts_S128_S1x128 := by
  dsimp only [hostOps3]; after_results; rfl

set_option maxHeartbeats 1000000 in

theorem hostOps5_v73 (Vin : Valuation τ sig (Elt F)) :
    StableHlo.after hostOps5 Vin (Proc.devRef .tc main_v73)
      = Cert.ReferenceIdeal.Spec.aggA (F := F) (Vin (Proc.devRef .tc main_v61)) (Vin (Proc.devRef .tc main_v3)) (Vin (Proc.devRef .tc main_v6)) (Vin (Proc.devRef .tc main_v30)) := by
  dsimp only [hostOps5]; after_results; rfl

theorem hostOps5_v74 (Vin : Valuation τ sig (Elt F)) :
    StableHlo.after hostOps5 Vin (Proc.devRef .tc main_v74) = shapeCast S1x128 (Vin (Proc.devRef .tc main_arg8)) shapeCasts_S128_S1x128 := by
  dsimp only [hostOps5]; after_results; rfl

set_option maxHeartbeats 1000000 in

theorem hostOps7_v88 (Vin : Valuation τ sig (Elt F)) :
    StableHlo.after hostOps7 Vin (Proc.devRef .tc main_v88)
      = Cert.ReferenceIdeal.Spec.aggB (F := F) (Vin (Proc.devRef .tc main_v76)) (Vin (Proc.devRef .tc main_v3)) (Vin (Proc.devRef .tc main_v6)) (Vin (Proc.devRef .tc main_v30)) := by
  dsimp only [hostOps7]; after_results; rfl

theorem hostOps7_v89 (Vin : Valuation τ sig (Elt F)) :
    StableHlo.after hostOps7 Vin (Proc.devRef .tc main_v89) = shapeCast S1x64 (Vin (Proc.devRef .tc main_arg10)) shapeCasts_S64_S1x64 := by
  dsimp only [hostOps7]; after_results; rfl

set_option maxHeartbeats 1000000 in

theorem hostOps9_v103 (Vin : Valuation τ sig (Elt F)) :
    StableHlo.after hostOps9 Vin (Proc.devRef .tc main_v103)
      = Cert.ReferenceIdeal.Spec.aggC (F := F) (Vin (Proc.devRef .tc main_v91)) (Vin (Proc.devRef .tc main_v3)) (Vin (Proc.devRef .tc main_v6)) (Vin (Proc.devRef .tc main_v30)) := by
  dsimp only [hostOps9]; after_results; rfl

theorem hostOps9_v104 (Vin : Valuation τ sig (Elt F)) :
    StableHlo.after hostOps9 Vin (Proc.devRef .tc main_v104) = shapeCast S1x32 (Vin (Proc.devRef .tc main_arg12)) shapeCasts_S32_S1x32 := by
  dsimp only [hostOps9]; after_results; rfl

theorem hostOps10_v106 (Vin : Valuation τ sig (Elt F)) :
    StableHlo.after hostOps10 Vin (Proc.devRef .tc main_v106) = shapeCast S100000x1 (Vin (Proc.devRef .tc main_arg2)) shapeCasts_S100000_S100000x1 := by
  dsimp only [hostOps10]; after_results; rfl

theorem hostOps10_v107 (Vin : Valuation τ sig (Elt F)) :
    StableHlo.after hostOps10 Vin (Proc.devRef .tc main_v107) = shapeCast S1x10 (Vin (Proc.devRef .tc main_arg14)) shapeCasts_S10_S1x10 := by
  dsimp only [hostOps10]; after_results; rfl

end Cert.KernelIdeal.Gen

end
-- ==== Proof.LibBlockProduct.lean ====
import Idealize.ShloMosaic.Lib.KernelVsHost

namespace Idealize.ShloMosaic

open Idealize.ShloMosaic.ValueIdx

/-- The all-zero offset of a rank-2 rectangle. -/
theorem zero2 : (![0, 0] : Fin 2 → Nat) = fun _ => 0 := funext fun a => by fin_cases a <;> rfl

namespace DotDims

variable {fl fr fo gl gr go : Fin 2 → Nat}

/-- Rows × contraction times contraction × columns, with no batch axis. -/
structure IsPlain (d : DotDims ⟨2, fl⟩ ⟨2, fr⟩ ⟨2, fo⟩) : Prop where
  lb : d.lhsBatch = []
  ln : d.lhsNonContracting = [0]
  lc : d.lhsContracting = [1]
  rb : d.rhsBatch = []
  rn : d.rhsNonContracting = [1]
  rc : d.rhsContracting = [0]

variable {d : DotDims ⟨2, fl⟩ ⟨2, fr⟩ ⟨2, fo⟩} {D : DotDims ⟨2, gl⟩ ⟨2, gr⟩ ⟨2, go⟩}

/-- An index read at two spellings of one axis. -/
private theorem val_at {s : Shape} (j : s.Idx) (p q : Nat) (hp : p < s.rank) (hq : q < s.rank) (e : p = q) :
    (j ⟨p, hp⟩).val = (j ⟨q, hq⟩).val := by subst e; rfl

/-- The left operand is read at the output's row. -/
theorem IsPlain.lhs_row (h : d.IsPlain) (j : (⟨2, fo⟩ : Shape).Idx) (k : d.contr.Idx) : (d.lhsIdx j k 0).val = (j 0).val := by
  unfold lhsIdx
  rw [dif_neg (by rw [h.lb]; exact List.not_mem_nil), dif_pos (by rw [h.ln]; exact List.mem_singleton.2 rfl)]
  exact val_at j _ 0 _ _ (by rw [h.lb, h.ln]; rfl)

/-- The right operand is read at the output's column. -/
theorem IsPlain.rhs_col (h : d.IsPlain) (j : (⟨2, fo⟩ : Shape).Idx) (k : d.contr.Idx) : (d.rhsIdx j k 1).val = (j 1).val := by
  unfold rhsIdx
  rw [dif_neg (by rw [h.rb]; exact List.not_mem_nil), dif_pos (by rw [h.rn]; exact List.mem_singleton.2 rfl)]
  exact val_at j _ 1 _ _ (by rw [h.lb, h.ln, h.rn]; rfl)

/-- One axis is contracted, -/
theorem IsPlain.rank_contr (h : d.IsPlain) : d.contr.rank = 1 := d.rank_contr.trans (by rw [h.lc]; rfl)

/-- and its extent is the left operand's column count. -/
theorem IsPlain.size_contr (h : d.IsPlain) : d.contr.size ⟨0, by rw [h.rank_contr]; exact Nat.one_pos⟩ = fl 1 := by
  have e : ∀ (l : List (Fin 2)) (hl : l = [1]) (hp : 0 < l.length), l[0] = 1 := fun l hl hp => by subst hl; rfl
  exact (d.size_contr 0 (by rw [h.lc]; exact Nat.one_pos)).trans (congrArg fl (e _ h.lc _))

end DotDims

/-- Block indices of a product cut into row blocks: the left operand and the output at row block `n`, the right operand whole. -/
def RowBlocks (oX oW oO : Fin 2 → Nat) (n : Nat) : Prop :=
  oX 0 = n ∧ oX 1 = 0 ∧ oW 0 = 0 ∧ oW 1 = 0 ∧ oO 0 = n ∧ oO 1 = 0

instance (oX oW oO : Fin 2 → Nat) (n : Nat) : Decidable (RowBlocks oX oW oO n) := instDecidableAnd

open DotDims in
/-- A product of blocks is the whole product read inside the output's block: row block `n` of the left array times the whole right array. -/
theorem matmul_block_eq_dotGeneral {fl fr fo gl gr go : Fin 2 → Nat} {φ₁ φ₂ ψ₁ ψ₂ : FTy}
    {d : DotDims ⟨2, fl⟩ ⟨2, fr⟩ ⟨2, fo⟩} {D : DotDims ⟨2, gl⟩ ⟨2, gr⟩ ⟨2, go⟩} (hd : d.IsPlain) (hD : D.IsPlain)
    (hK : gl 1 = fl 1) (hR : fo 0 = fl 0) {prec prec' : Option ContractPrecision}
    {x : FVec Ideal ⟨2, fl⟩ φ₁} {w : FVec Ideal ⟨2, fr⟩ φ₂} {X : FVec Ideal ⟨2, gl⟩ ψ₁} {W : FVec Ideal ⟨2, gr⟩ ψ₂}
    (eX : (⟨2, fl⟩ : Shape).Idx → (⟨2, gl⟩ : Shape).Idx) (eW : (⟨2, fr⟩ : Shape).Idx → (⟨2, gr⟩ : Shape).Idx)
    {j : (⟨2, fo⟩ : Shape).Idx} {i : (⟨2, go⟩ : Shape).Idx}
    (hx : ∀ y, x y = X (eX y)) (hw : ∀ y, w y = W (eW y)) {oX oW oO : Fin 2 → Nat} {n : Nat}
    (hX : ∀ y b, (eX y b).val = oX b * fl b + 1 * (y b).val) (hW : ∀ y b, (eW y b).val = oW b * fr b + 1 * (y b).val)
    (hi : ∀ b, (i b).val = oO b * fo b + 1 * (j b).val)
    (ho : RowBlocks oX oW oO n) :
    matmul d prec x w (constant ⟨2, fo⟩ .f32 0x00000000#32) j = Host.dotGeneral D prec' X W i := by
  obtain ⟨rfl, h1, h2, h3, h4, h5⟩ := ho
  have hX0 : ∀ y, (eX y 0).val = oX 0 * fl 0 + (y 0).val := fun y => by rw [hX y 0, Nat.one_mul]
  have hX1 : ∀ y, (eX y 1).val = (y 1).val := fun y => by rw [hX y 1, h1, Nat.zero_mul, Nat.zero_add, Nat.one_mul]
  have hW0 : ∀ y, (eW y 0).val = (y 0).val := fun y => by rw [hW y 0, h2, Nat.zero_mul, Nat.zero_add, Nat.one_mul]
  have hW1 : ∀ y, (eW y 1).val = (y 1).val := fun y => by rw [hW y 1, h3, Nat.zero_mul, Nat.zero_add, Nat.one_mul]
  have hi0 : (i 0).val = oX 0 * fl 0 + (j 0).val := by rw [hi 0, h4, hR, Nat.one_mul]
  have hi1 : (i 1).val = (j 1).val := by rw [hi 1, h5, Nat.zero_mul, Nat.zero_add, Nat.one_mul]
  rw [matmul_zero_eq_dotGeneral]
  show FloatOps.dotGeneral d prec _ x w j = FloatOps.dotGeneral D prec' _ X W i
  rw [Ideal.dotGeneral_apply, Ideal.dotGeneral_apply,
    ← Equiv.sum_comp (contrEquiv1 d (fl 1) hd.rank_contr hd.size_contr).symm,
    ← Equiv.sum_comp (contrEquiv1 D (fl 1) hD.rank_contr (hD.size_contr.trans hK)).symm]
  refine Finset.sum_congr rfl fun k _ => ?_
  have e := contrEquiv1_symm_val d (fl 1) hd.rank_contr hd.size_contr k
  have E := contrEquiv1_symm_val D (fl 1) hD.rank_contr (hD.size_contr.trans hK) k
  have two : ∀ {g : Fin 2 → Nat} (p q : (⟨2, g⟩ : Shape).Idx), (p 0).val = (q 0).val → (p 1).val = (q 1).val → p = q :=
    fun p q h0 h1 => funext fun b => Fin.ext (by match b with | ⟨0, _⟩ => exact h0 | ⟨1, _⟩ => exact h1)
  rw [hx, hw, two (eX _) (D.lhsIdx i _) (((hX0 _).trans (congrArg (oX 0 * fl 0 + ·) (hd.lhs_row j _))).trans (hi0.symm.trans (hD.lhs_row i _).symm))
      (((hX1 _).trans ((d.lhsIdx_val_of_single hd.lc j _).trans e)).trans ((D.lhsIdx_val_of_single hD.lc i _).trans E).symm),
    two (eW _) (D.rhsIdx i _) (((hW0 _).trans ((d.rhsIdx_val_of_single hd.rc j _).trans e)).trans ((D.rhsIdx_val_of_single hD.rc i _).trans E).symm)
      (((hW1 _).trans (hd.rhs_col j _)).trans (hi1.symm.trans (hD.rhs_col i _).symm))]

/-- Row `r` of an array cut into `N` row blocks lies in block `r / sz 0`; the columns are whole. -/
theorem exists_rowBlock {g : Fin 2 → Nat} (sz : Fin 2 → Nat) (N : Nat) (h0 : g 0 = sz 0 * N) (h1 : g 1 = sz 1) (hB : 0 < sz 0)
    (i : (⟨2, g⟩ : Shape).Idx) : ∃ t : Fin N, ∀ oX oW o, RowBlocks oX oW o t.val →
      ∀ a, o a * sz a ≤ (i a).val ∧ (i a).val < o a * sz a + sz a := by
  have l0 : (i 0).val < sz 0 * N := h0 ▸ (i 0).isLt
  have l1 : (i 1).val < sz 1 := h1 ▸ (i 1).isLt
  refine ⟨⟨(i 0).val / sz 0, Nat.div_lt_of_lt_mul l0⟩, fun _ _ o ⟨_, _, _, _, e0, e1⟩ a => ?_⟩
  match a with
  | ⟨0, _⟩ => exact e0 ▸ ⟨Nat.div_mul_le_self _ _, Nat.lt_div_mul_add hB⟩
  | ⟨1, _⟩ => exact e1 ▸ ⟨by rw [Nat.zero_mul]; exact Nat.zero_le _, by rw [Nat.zero_mul, Nat.zero_add]; exact l1⟩

end Idealize.ShloMosaic
-- ==== Proof.KI.MmVal.lean ====
import proofs.«419567_j13065290514766_1_alg».proof.Proof.KI.Mm0
import proofs.«419567_j13065290514766_1_alg».proof.Proof.KI.Mm2
import proofs.«419567_j13065290514766_1_alg».proof.Proof.KI.Mm4
import proofs.«419567_j13065290514766_1_alg».proof.Proof.KI.Mm6
import proofs.«419567_j13065290514766_1_alg».proof.Proof.KI.Mm8
import proofs.«419567_j13065290514766_1_alg».proof.ReferenceIdeal
import proofs.«419567_j13065290514766_1_alg».proof.Proof.Gen.ReferenceIdeal
import proofs.«419567_j13065290514766_1_alg».proof.Proof.LibBlockProduct

noncomputable section

namespace Cert.KernelIdeal.Gen

open Idealize.ShloMosaic Idealize.ShloMosaic.TcCoe

variable (V : (c : Dev nD) → (b : Ref sig .tc) → Buf (Elt Ideal) ((c : Thread nD τ).loc b))

theorem idx_facts0 : ∀ t : Fin cfg0.N, RowBlocks (win0_0.index t) (win0_1.index t) (win0_2.index t) t.val :=
  (by decide +kernel : ∀ t : Fin grid0.N, _)

/-- Row block `t` of the result is row block `t` of the left array times the right array, and the row blocks tile the rows. -/
theorem mm0_value (c : Dev nD) :
    ((dat0 (F := Ideal) V c).arrAt 2 cfg0.N : FVec Ideal Cert.ReferenceIdeal.S100000x128 .f32)
      = Host.dotGeneral (F := Ideal) (φ₁ := .f32) (φ₂ := .f32) Cert.ReferenceIdeal.dot_S100000x128_S128x128_S100000x128_1_0_0_1_n_n none
          (V c (Pipeline.arrRef spec0 0)) (V c (Pipeline.arrRef spec0 1)) := by
  refine (dat0 V c).arrAt_eq_of_cover 2 _ (fun t _ => ?_) fun i => ?_
  · show (cfg0.win 2).cut (grid0.coords t) ((dat0 V c).after 2 t) = _
    rw [after0_2, out0_2, View.canon_unit_zero zero2, View.ld_unit_zero (S := S5000x128) zero2,
      View.ld_unit_zero (S := S128x128) zero2, k0_pay1]
    funext j
    exact matmul_block_eq_dotGeneral ⟨rfl, rfl, rfl, rfl, rfl, rfl⟩ ⟨rfl, rfl, rfl, rfl, rfl, rfl⟩ (by rfl) (by rfl)
      (((cfg0.win 0).blk t).view.emb ·) (((cfg0.win 1).blk t).view.emb ·) (fun _ => rfl) (fun _ => rfl)
      (fun _ _ => rfl) (fun _ _ => rfl) (fun _ => rfl) (idx_facts0 t)
  · obtain ⟨t, ht⟩ := exists_rowBlock S5000x128.size 20 (by rfl) (by rfl) (by decide) i
    refine ⟨t, flush0_2 t, ?_⟩
    show i ∈ ((View.whole main_v31).slice (win0_2.rect t)).set
    rw [View.set_slice_whole, Rect.mem_set_unit]
    exact ht _ _ _ (idx_facts0 t)

theorem idx_facts2 : ∀ t : Fin cfg2.N, RowBlocks (win2_0.index t) (win2_1.index t) (win2_2.index t) t.val :=
  (by decide +kernel : ∀ t : Fin grid2.N, _)

/-- Row block `t` of the result is row block `t` of the left array times the right array, and the row blocks tile the rows. -/
theorem mm2_value (c : Dev nD) :
    ((dat2 (F := Ideal) V c).arrAt 2 cfg2.N : FVec Ideal Cert.ReferenceIdeal.S100000x128 .f32)
      = Host.dotGeneral (F := Ideal) (φ₁ := .f32) (φ₂ := .f32) Cert.ReferenceIdeal.dot_S100000x128_S128x128_S100000x128_1_0_0_1_n_n none
          (V c (Pipeline.arrRef spec2 0)) (V c (Pipeline.arrRef spec2 1)) := by
  refine (dat2 V c).arrAt_eq_of_cover 2 _ (fun t _ => ?_) fun i => ?_
  · show (cfg2.win 2).cut (grid2.coords t) ((dat2 V c).after 2 t) = _
    rw [after2_2, out2_2, View.canon_unit_zero zero2, View.ld_unit_zero (S := S5000x128) zero2,
      View.ld_unit_zero (S := S128x128) zero2, k2_pay1, shapeCast_self]
    funext j
    exact matmul_block_eq_dotGeneral ⟨rfl, rfl, rfl, rfl, rfl, rfl⟩ ⟨rfl, rfl, rfl, rfl, rfl, rfl⟩ (by rfl) (by rfl)
      (((cfg2.win 0).blk t).view.emb ·) (((cfg2.win 1).blk t).view.emb ·) (fun _ => rfl) (fun _ => rfl)
      (fun _ _ => rfl) (fun _ _ => rfl) (fun _ => rfl) (idx_facts2 t)
  · obtain ⟨t, ht⟩ := exists_rowBlock S5000x128.size 20 (by rfl) (by rfl) (by decide) i
    refine ⟨t, flush2_2 t, ?_⟩
    show i ∈ ((View.whole main_v46).slice (win2_2.rect t)).set
    rw [View.set_slice_whole, Rect.mem_set_unit]
    exact ht _ _ _ (idx_facts2 t)

theorem idx_facts4 : ∀ t : Fin cfg4.N, RowBlocks (win4_0.index t) (win4_1.index t) (win4_2.index t) t.val :=
  (by decide +kernel : ∀ t : Fin grid4.N, _)

/-- Row block `t` of the result is row block `t` of the left array times the right array, and the row blocks tile the rows. -/
theorem mm4_value (c : Dev nD) :
    ((dat4 (F := Ideal) V c).arrAt 2 cfg4.N : FVec Ideal Cert.ReferenceIdeal.S100000x128 .f32)
      = Host.dotGeneral (F := Ideal) (φ₁ := .f32) (φ₂ := .f32) Cert.ReferenceIdeal.dot_S100000x128_S128x128_S100000x128_1_0_0_1_n_n none
          (V c (Pipeline.arrRef spec4 0)) (V c (Pipeline.arrRef spec4 1)) := by
  refine (dat4 V c).arrAt_eq_of_cover 2 _ (fun t _ => ?_) fun i => ?_
  · show (cfg4.win 2).cut (grid4.coords t) ((dat4 V c).after 2 t) = _
    rw [after4_2, out4_2, View.canon_unit_zero zero2, View.ld_unit_zero (S := S5000x128) zero2,
      View.ld_unit_zero (S := S128x128) zero2, k4_pay1, shapeCast_self]
    funext j
    exact matmul_block_eq_dotGeneral ⟨rfl, rfl, rfl, rfl, rfl, rfl⟩ ⟨rfl, rfl, rfl, rfl, rfl, rfl⟩ (by rfl) (by rfl)
      (((cfg4.win 0).blk t).view.emb ·) (((cfg4.win 1).blk t).view.emb ·) (fun _ => rfl) (fun _ => rfl)
      (fun _ _ => rfl) (fun _ _ => rfl) (fun _ => rfl) (idx_facts4 t)
  · obtain ⟨t, ht⟩ := exists_rowBlock S5000x128.size 20 (by rfl) (by rfl) (by decide) i
    refine ⟨t, flush4_2 t, ?_⟩
    show i ∈ ((View.whole main_v61).slice (win4_2.rect t)).set
    rw [View.set_slice_whole, Rect.mem_set_unit]
    exact ht _ _ _ (idx_facts4 t)

theorem idx_facts6 : ∀ t : Fin cfg6.N, RowBlocks (win6_0.index t) (win6_1.index t) (win6_2.index t) t.val :=
  (by decide +kernel : ∀ t : Fin grid6.N, _)

/-- Row block `t` of the result is row block `t` of the left array times the right array, and the row blocks tile the rows. -/
theorem mm6_value (c : Dev nD) :
    ((dat6 (F := Ideal) V c).arrAt 2 cfg6.N : FVec Ideal Cert.ReferenceIdeal.S100000x64 .f32)
      = Host.dotGeneral (F := Ideal) (φ₁ := .f32) (φ₂ := .f32) Cert.ReferenceIdeal.dot_S100000x128_S128x64_S100000x64_1_0_0_1_n_n none
          (V c (Pipeline.arrRef spec6 0)) (V c (Pipeline.arrRef spec6 1)) := by
  refine (dat6 V c).arrAt_eq_of_cover 2 _ (fun t _ => ?_) fun i => ?_
  · show (cfg6.win 2).cut (grid6.coords t) ((dat6 V c).after 2 t) = _
    rw [after6_2, out6_2, View.canon_unit_zero zero2, View.ld_unit_zero (S := S5000x128) zero2,
      View.ld_unit_zero (S := S128x64) zero2, k6_pay1, shapeCast_self]
    funext j
    exact matmul_block_eq_dotGeneral ⟨rfl, rfl, rfl, rfl, rfl, rfl⟩ ⟨rfl, rfl, rfl, rfl, rfl, rfl⟩ (by rfl) (by rfl)
      (((cfg6.win 0).blk t).view.emb ·) (((cfg6.win 1).blk t).view.emb ·) (fun _ => rfl) (fun _ => rfl)
      (fun _ _ => rfl) (fun _ _ => rfl) (fun _ => rfl) (idx_facts6 t)
  · obtain ⟨t, ht⟩ := exists_rowBlock S5000x64.size 20 (by rfl) (by rfl) (by decide) i
    refine ⟨t, flush6_2 t, ?_⟩
    show i ∈ ((View.whole main_v76).slice (win6_2.rect t)).set
    rw [View.set_slice_whole, Rect.mem_set_unit]
    exact ht _ _ _ (idx_facts6 t)

theorem idx_facts8 : ∀ t : Fin cfg8.N, RowBlocks (win8_0.index t) (win8_1.index t) (win8_2.index t) t.val :=
  (by decide +kernel : ∀ t : Fin grid8.N, _)

/-- Row block `t` of the result is row block `t` of the left array times the right array, and the row blocks tile the rows. -/
theorem mm8_value (c : Dev nD) :
    ((dat8 (F := Ideal) V c).arrAt 2 cfg8.N : FVec Ideal Cert.ReferenceIdeal.S100000x32 .f32)
      = Host.dotGeneral (F := Ideal) (φ₁ := .f32) (φ₂ := .f32) Cert.ReferenceIdeal.dot_S100000x64_S64x32_S100000x32_1_0_0_1_n_n none
          (V c (Pipeline.arrRef spec8 0)) (V c (Pipeline.arrRef spec8 1)) := by
  refine (dat8 V c).arrAt_eq_of_cover 2 _ (fun t _ => ?_) fun i => ?_
  · show (cfg8.win 2).cut (grid8.coords t) ((dat8 V c).after 2 t) = _
    rw [after8_2, out8_2, View.canon_unit_zero zero2, View.ld_unit_zero (S := S5000x64) zero2,
      View.ld_unit_zero (S := S64x32) zero2, k8_pay1, shapeCast_self]
    funext j
    exact matmul_block_eq_dotGeneral ⟨rfl, rfl, rfl, rfl, rfl, rfl⟩ ⟨rfl, rfl, rfl, rfl, rfl, rfl⟩ (by rfl) (by rfl)
      (((cfg8.win 0).blk t).view.emb ·) (((cfg8.win 1).blk t).view.emb ·) (fun _ => rfl) (fun _ => rfl)
      (fun _ _ => rfl) (fun _ _ => rfl) (fun _ => rfl) (idx_facts8 t)
  · obtain ⟨t, ht⟩ := exists_rowBlock S5000x32.size 20 (by rfl) (by rfl) (by decide) i
    refine ⟨t, flush8_2 t, ?_⟩
    show i ∈ ((View.whole main_v91).slice (win8_2.rect t)).set
    rw [View.set_slice_whole, Rect.mem_set_unit]
    exact ht _ _ _ (idx_facts8 t)

end Cert.KernelIdeal.Gen

end
-- ==== Proof.LibRowBlocks.lean ====
import Idealize.ShloMosaic.Lib.Pipeline.Value
import Idealize.ShloMosaic.Lib.ValueIdx
import Idealize.ShloMosaic.Lib.ValueLayout

noncomputable section

namespace Cert.RowBlocks

open Idealize.ShloMosaic Idealize.ShloMosaic.ValueIdx

/-- Two zeros, as the zero function on two axes. -/
theorem zeros2 : (![0, 0] : Fin 2 → Nat) = fun _ => 0 := funext fun a => by fin_cases a <;> rfl

section Vectors

variable {α : Type} {n : ℕ}

/-- A vector broadcast along axis `d` is read at coordinate `d` (which is 0 when the vector has one entry). -/
theorem broadcastInDim_vec_apply {t : Shape} (d : Fin t.rank) (h : (⟨1, ![n]⟩ : Shape).BroadcastsInDim t ![d])
    (x : (⟨1, ![n]⟩ : Shape).Idx → α) (j : t.Idx) (i : Fin n) (hi : i.val = (j d).val) :
    broadcastInDim t ![d] h x j = x (ix1 i) :=
  broadcastInDim_apply _ h x j (ix1 i) fun ⟨0, _⟩ => by
    show i.val = if n = 1 then 0 else (j d).val
    have := i.isLt
    split <;> omega

/-- Position `(0, i)` of `1 × n` is position `i`: the reshape to one row is the broadcast along a new leading axis. -/
theorem reshape_row_eq_bcast (x : (⟨1, ![n]⟩ : Shape).Idx → α) (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ x h = broadcastInDim ⟨2, ![1, n]⟩ (![1] : Fin 1 → Fin 2) h' x := by
  funext j
  obtain ⟨u, i, rfl⟩ : ∃ u i, j = ix2 u i := ⟨_, _, eq_ix2 j⟩
  rw [shapeCast_a_1a_apply]
  exact (broadcastInDim_vec_apply 1 h' x _ i rfl).symm

/-- Position `(i, 0)` of `n × 1` is position `i`: the reshape to one column is the broadcast along a new trailing axis. -/
theorem reshape_col_eq_bcast (x : (⟨1, ![n]⟩ : Shape).Idx → α) (h : (⟨1, ![n]⟩ : Shape).ShapeCasts ⟨2, ![n, 1]⟩)
    (h' : (⟨1, ![n]⟩ : Shape).BroadcastsInDim ⟨2, ![n, 1]⟩ (![0] : Fin 1 → Fin 2)) :
    shapeCast ⟨2, ![n, 1]⟩ x h = broadcastInDim ⟨2, ![n, 1]⟩ (![0] : Fin 1 → Fin 2) h' x :=
  funext fun j => (shapeCast_apply x h j (ix1 (j 0)) (by
    rw [Shape.rowMajor_val_two, Shape.rowMajor_val_one]
    show (j 0).val = (j 0).val * 1 + (j 1).val
    have := idx2_lt1 j
    omega)).trans (broadcastInDim_vec_apply 0 h' x j (j 0) rfl).symm

end Vectors

section BiasRelu

variable {F : FTy → Type} [FloatOps F] {N R B C : ℕ}

/-- The broadcast of a one-row matrix reads its row 0 at the same column; the broadcast scalar is the scalar. -/
theorem biasRelu_apply (h1 : (⟨2, ![1, C]⟩ : Shape).BroadcastsInDim ⟨2, ![R, C]⟩ ![0, 1])
    (h0 : (⟨0, ![]⟩ : Shape).BroadcastsInDim ⟨2, ![R, C]⟩ ![])
    (a : (⟨2, ![R, C]⟩ : Shape).Idx → Elt F .f32) (b : (⟨2, ![1, C]⟩ : Shape).Idx → Elt F .f32) (i : (⟨2, ![R, C]⟩ : Shape).Idx) :
    maximumf (addf a (broadcastInDim ⟨2, ![R, C]⟩ ![0, 1] h1 b)) (broadcastInDim ⟨2, ![R, C]⟩ ![] h0 (constant (F := F) ⟨0, ![]⟩ .f32 0x00000000#32)) i
      = FloatOps.maximumf (FloatOps.addf (a i) (b (ix2 (0 : Fin 1) (i 1)))) (FloatOps.ofBits .f32 0x00000000#32) := by
  show FloatOps.maximumf (FloatOps.addf (a i) (broadcastInDim _ ![0, 1] h1 b i)) _ = _
  rw [broadcastInDim_apply _ h1 b i (ix2 (0 : Fin 1) (i 1)) fun ax => match ax with
    | ⟨0, _⟩ => (if_pos rfl).symm
    | ⟨1, _⟩ => by
      show (i 1).val = if C = 1 then 0 else (i 1).val
      have := idx2_lt1 i
      split <;> omega]
  rfl

/-- The same law for a block as the body computes it: same-shape casts are the identity, the one row is read at row 0. -/
theorem biasReluBlock_apply (h1 : (⟨2, ![B, C]⟩ : Shape).ShapeCasts ⟨2, ![B, C]⟩) (h2 : (⟨2, ![1, C]⟩ : Shape).ShapeCasts ⟨2, ![1, C]⟩)
    (h3 : (⟨2, ![1, C]⟩ : Shape).Broadcasts ⟨2, ![B, C]⟩)
    (x0 : (⟨2, ![B, C]⟩ : Shape).Idx → Elt F .f32) (x1 : (⟨2, ![1, C]⟩ : Shape).Idx → Elt F .f32) (j : (⟨2, ![B, C]⟩ : Shape).Idx) :
    maximumf (addf (shapeCast ⟨2, ![B, C]⟩ x0 h1) (broadcastTo ⟨2, ![B, C]⟩ (shapeCast ⟨2, ![1, C]⟩ x1 h2) h3))
        (broadcast ⟨2, ![B, C]⟩ (Scalar.ofBits (F := F) .f32 0x00000000#32)) j
      = FloatOps.maximumf (FloatOps.addf (x0 j) (x1 (ix2 (0 : Fin 1) (j 1)))) (FloatOps.ofBits .f32 0x00000000#32) := by
  obtain ⟨p, q, rfl⟩ : ∃ p q, j = ix2 p q := ⟨_, _, eq_ix2 j⟩
  show FloatOps.maximumf (FloatOps.addf (shapeCast _ x0 h1 _) (broadcastTo _ (shapeCast _ x1 h2) h3 _)) _ = _
  rw [shapeCast_self, shapeCast_self, broadcastTo_1b_ab_apply]
  rfl

/-- Rows taken through `e`, which keeps the column, and the whole bias row through `e'`: the law on the block is the law on the array at `e`. -/
theorem biasRelu_rowBlock {i0 i1 i2 h1 h2 h3 hb h0} {a : (⟨2, ![R, C]⟩ : Shape).Idx → Elt F .f32} {b : (⟨2, ![1, C]⟩ : Shape).Idx → Elt F .f32}
    {e : (⟨2, ![B, C]⟩ : Shape).Idx → (⟨2, ![R, C]⟩ : Shape).Idx} {ix : Fin 2 → ℕ}
    (he : ∀ y a, (e y a).val = ix a * ![B, C] a + (y a).val) (hix : ix 1 = 0)
    {e' : (⟨2, ![1, C]⟩ : Shape).Idx → (⟨2, ![1, C]⟩ : Shape).Idx} {ix' : Fin 2 → ℕ}
    (he' : ∀ y a, (e' y a).val = ix' a * ![1, C] a + (y a).val) (hix' : ix' = ![0, 0])
    {x0 : (⟨2, ![B, C]⟩ : Shape).Idx → Elt F .f32} {x1 : (⟨2, ![1, C]⟩ : Shape).Idx → Elt F .f32}
    (hx0 : ∀ y, x0 y = a (e y)) (hx1 : ∀ y, x1 y = b (e' y)) (j : (⟨2, ![B, C]⟩ : Shape).Idx) :
    View.canon [(⟨Rect.unit ![0, 0] ![B, C] i2, maximumf (addf (shapeCast ⟨2, ![B, C]⟩ (View.ld x0 (Rect.unit ![0, 0] ![B, C] i0)) h1)
        (broadcastTo ⟨2, ![B, C]⟩ (shapeCast ⟨2, ![1, C]⟩ (View.ld x1 (Rect.unit ![0, 0] ![1, C] i1)) h2) h3))
        (broadcast ⟨2, ![B, C]⟩ (Scalar.ofBits (F := F) .f32 0x00000000#32))⟩ : View.Piece (Elt F) ⟨2, ![B, C]⟩ .f32)] j
      = maximumf (addf a (broadcastInDim ⟨2, ![R, C]⟩ ![0, 1] hb b)) (broadcastInDim ⟨2, ![R, C]⟩ ![] h0 (constant (F := F) ⟨0, ![]⟩ .f32 0x00000000#32)) (e j) := by
  have h : e j 1 = j 1 := Fin.ext (by rw [he, hix, Nat.zero_mul, Nat.zero_add])
  have h' : e' (ix2 0 (j 1)) = ix2 0 (j 1) := funext fun a => Fin.ext (by
    rw [he', hix']
    fin_cases a <;> (show 0 * _ + _ = _; rw [Nat.zero_mul, Nat.zero_add]))
  rw [View.canon_unit_zero zeros2, View.ld_unit_zero zeros2, View.ld_unit_zero zeros2, biasReluBlock_apply, biasRelu_apply, hx0, hx1, h, h']
  rfl

/-- Row `r` of `N * B` rows is row `r % B` of block `r / B`. -/
theorem rowBlocks_cover (hR : R = N * B) {e : Fin N → (⟨2, ![B, C]⟩ : Shape).Idx → (⟨2, ![R, C]⟩ : Shape).Idx} {ix : Fin N → Fin 2 → ℕ}
    (he : ∀ t y a, (e t y a).val = ix t a * ![B, C] a + (y a).val) (hix0 : ∀ t, ix t 0 = t.val) (hix1 : ∀ t, ix t 1 = 0)
    (i : (⟨2, ![R, C]⟩ : Shape).Idx) : ∃ t y, e t y = i := by
  have hi : (i 0).val < N * B := by have := idx2_lt0 i; omega
  have hB : 0 < B := Nat.pos_of_ne_zero fun h => by rw [h] at hi; omega
  refine ⟨⟨(i 0).val / B, (Nat.div_lt_iff_lt_mul hB).mpr hi⟩, ix2 ⟨(i 0).val % B, Nat.mod_lt _ hB⟩ (i 1), Shape.idx_ext₂ ?_ ?_⟩
  · rw [he, hix0]
    exact Nat.div_add_mod' _ _
  · rw [he, hix1, Nat.zero_mul, Nat.zero_add]

end BiasRelu

end Cert.RowBlocks

end
-- ==== Proof.KI.BrVal.lean ====
import proofs.«419567_j13065290514766_1_alg».proof.Proof.KI.Br1
import proofs.«419567_j13065290514766_1_alg».proof.Proof.KI.Br3
import proofs.«419567_j13065290514766_1_alg».proof.Proof.KI.Br5
import proofs.«419567_j13065290514766_1_alg».proof.Proof.KI.Br7
import proofs.«419567_j13065290514766_1_alg».proof.Proof.KI.Br9
import proofs.«419567_j13065290514766_1_alg».proof.ReferenceIdeal
import proofs.«419567_j13065290514766_1_alg».proof.Proof.Gen.ReferenceIdeal
import proofs.«419567_j13065290514766_1_alg».proof.Proof.LibRowBlocks

noncomputable section

namespace Cert.KernelIdeal.Gen

open Idealize.ShloMosaic Idealize.ShloMosaic.TcCoe
open Idealize.SL.Sem
open Cert.RowBlocks

section Reshapes

variable {α : Type}

theorem bias_row_S128 (b : S128.Idx → α) :
    shapeCast S1x128 b shapeCasts_S128_S1x128
      = broadcastInDim Cert.ReferenceIdeal.S1x128 ![1] Cert.ReferenceIdeal.Gen.bcast_S128_S1x128_1 b :=
  reshape_row_eq_bcast b _ _

theorem bias_row_S64 (b : S64.Idx → α) :
    shapeCast S1x64 b shapeCasts_S64_S1x64
      = broadcastInDim Cert.ReferenceIdeal.S1x64 ![1] Cert.ReferenceIdeal.Gen.bcast_S64_S1x64_1 b :=
  reshape_row_eq_bcast b _ _

theorem bias_row_S32 (b : S32.Idx → α) :
    shapeCast S1x32 b shapeCasts_S32_S1x32
      = broadcastInDim Cert.ReferenceIdeal.S1x32 ![1] Cert.ReferenceIdeal.Gen.bcast_S32_S1x32_1 b :=
  reshape_row_eq_bcast b _ _

theorem bias_row_S10 (b : S10.Idx → α) :
    shapeCast S1x10 b shapeCasts_S10_S1x10
      = broadcastInDim Cert.ReferenceIdeal.S1x10 ![1] Cert.ReferenceIdeal.Gen.bcast_S10_S1x10_1 b :=
  reshape_row_eq_bcast b _ _

theorem ids_col_S100000 (ids : S100000.Idx → α) :
    shapeCast S100000x1 ids shapeCasts_S100000_S100000x1
      = broadcastInDim Cert.ReferenceIdeal.S100000x1 ![0] Cert.ReferenceIdeal.Gen.bcast_S100000_S100000x1_0 ids :=
  reshape_col_eq_bcast ids _ _

end Reshapes

variable {F : FTy → Type} [FloatOps F]
variable (V : (c : Dev nD) → (b : Ref sig .tc) → Buf (Elt F) ((c : Thread nD τ).loc b))

theorem br1_value (c : Dev nD) : (dat1 V c).arrAt 2 cfg1.N
    = maximumf (addf (V c (Pipeline.arrRef spec1 0)) (broadcastInDim Cert.ReferenceIdeal.S100000x128 ![0, 1] Cert.ReferenceIdeal.Gen.bcast_S1x128_S100000x128_0_1 (V c (Pipeline.arrRef spec1 1))))
        (broadcastInDim Cert.ReferenceIdeal.S100000x128 ![] Cert.ReferenceIdeal.Gen.bcast_S_S100000x128 (constant (F := F) Cert.ReferenceIdeal.S_ .f32 0x00000000#32)) := by
  refine (dat1 V c).arrAt_eq_of_cover 2 _ (fun t _ => ?_) fun i => ?_
  · show (cfg1.win 2).cut (grid1.coords t) ((dat1 V c).after 2 t) = _
    rw [after1_2]
    unfold out1_2 k1_pay1
    exact funext (biasRelu_rowBlock (win1_2.rect_emb_val t) rfl (win1_1.rect_emb_val t) rfl (fun _ => rfl) fun _ => rfl)
  · obtain ⟨t, y, rfl⟩ := rowBlocks_cover (N := 20) rfl win1_2.rect_emb_val (by decide +kernel) (fun _ => rfl) i
    exact ⟨t, flush1_2 t, View.emb_mem_set _ y⟩

theorem br3_value (c : Dev nD) : (dat3 V c).arrAt 2 cfg3.N
    = maximumf (addf (V c (Pipeline.arrRef spec3 0)) (broadcastInDim Cert.ReferenceIdeal.S100000x128 ![0, 1] Cert.ReferenceIdeal.Gen.bcast_S1x128_S100000x128_0_1 (V c (Pipeline.arrRef spec3 1))))
        (broadcastInDim Cert.ReferenceIdeal.S100000x128 ![] Cert.ReferenceIdeal.Gen.bcast_S_S100000x128 (constant (F := F) Cert.ReferenceIdeal.S_ .f32 0x00000000#32)) := by
  refine (dat3 V c).arrAt_eq_of_cover 2 _ (fun t _ => ?_) fun i => ?_
  · show (cfg3.win 2).cut (grid3.coords t) ((dat3 V c).after 2 t) = _
    rw [after3_2]
    unfold out3_2 k3_pay1
    exact funext (biasRelu_rowBlock (win3_2.rect_emb_val t) rfl (win3_1.rect_emb_val t) rfl (fun _ => rfl) fun _ => rfl)
  · obtain ⟨t, y, rfl⟩ := rowBlocks_cover (N := 20) rfl win3_2.rect_emb_val (by decide +kernel) (fun _ => rfl) i
    exact ⟨t, flush3_2 t, View.emb_mem_set _ y⟩

theorem br5_value (c : Dev nD) : (dat5 V c).arrAt 2 cfg5.N
    = maximumf (addf (V c (Pipeline.arrRef spec5 0)) (broadcastInDim Cert.ReferenceIdeal.S100000x128 ![0, 1] Cert.ReferenceIdeal.Gen.bcast_S1x128_S100000x128_0_1 (V c (Pipeline.arrRef spec5 1))))
        (broadcastInDim Cert.ReferenceIdeal.S100000x128 ![] Cert.ReferenceIdeal.Gen.bcast_S_S100000x128 (constant (F := F) Cert.ReferenceIdeal.S_ .f32 0x00000000#32)) := by
  refine (dat5 V c).arrAt_eq_of_cover 2 _ (fun t _ => ?_) fun i => ?_
  · show (cfg5.win 2).cut (grid5.coords t) ((dat5 V c).after 2 t) = _
    rw [after5_2]
    unfold out5_2 k5_pay1
    exact funext (biasRelu_rowBlock (win5_2.rect_emb_val t) rfl (win5_1.rect_emb_val t) rfl (fun _ => rfl) fun _ => rfl)
  · obtain ⟨t, y, rfl⟩ := rowBlocks_cover (N := 20) rfl win5_2.rect_emb_val (by decide +kernel) (fun _ => rfl) i
    exact ⟨t, flush5_2 t, View.emb_mem_set _ y⟩

theorem br7_value (c : Dev nD) : (dat7 V c).arrAt 2 cfg7.N
    = maximumf (addf (V c (Pipeline.arrRef spec7 0)) (broadcastInDim Cert.ReferenceIdeal.S100000x64 ![0, 1] Cert.ReferenceIdeal.Gen.bcast_S1x64_S100000x64_0_1 (V c (Pipeline.arrRef spec7 1))))
        (broadcastInDim Cert.ReferenceIdeal.S100000x64 ![] Cert.ReferenceIdeal.Gen.bcast_S_S100000x64 (constant (F := F) Cert.ReferenceIdeal.S_ .f32 0x00000000#32)) := by
  refine (dat7 V c).arrAt_eq_of_cover 2 _ (fun t _ => ?_) fun i => ?_
  · show (cfg7.win 2).cut (grid7.coords t) ((dat7 V c).after 2 t) = _
    rw [after7_2]
    unfold out7_2 k7_pay1
    exact funext (biasRelu_rowBlock (win7_2.rect_emb_val t) rfl (win7_1.rect_emb_val t) rfl (fun _ => rfl) fun _ => rfl)
  · obtain ⟨t, y, rfl⟩ := rowBlocks_cover (N := 20) rfl win7_2.rect_emb_val (by decide +kernel) (fun _ => rfl) i
    exact ⟨t, flush7_2 t, View.emb_mem_set _ y⟩

theorem br9_value (c : Dev nD) : (dat9 V c).arrAt 2 cfg9.N
    = maximumf (addf (V c (Pipeline.arrRef spec9 0)) (broadcastInDim Cert.ReferenceIdeal.S100000x32 ![0, 1] Cert.ReferenceIdeal.Gen.bcast_S1x32_S100000x32_0_1 (V c (Pipeline.arrRef spec9 1))))
        (broadcastInDim Cert.ReferenceIdeal.S100000x32 ![] Cert.ReferenceIdeal.Gen.bcast_S_S100000x32 (constant (F := F) Cert.ReferenceIdeal.S_ .f32 0x00000000#32)) := by
  refine (dat9 V c).arrAt_eq_of_cover 2 _ (fun t _ => ?_) fun i => ?_
  · show (cfg9.win 2).cut (grid9.coords t) ((dat9 V c).after 2 t) = _
    rw [after9_2]
    unfold out9_2 k9_pay1
    exact funext (biasRelu_rowBlock (win9_2.rect_emb_val t) rfl (win9_1.rect_emb_val t) rfl (fun _ => rfl) fun _ => rfl)
  · obtain ⟨t, y, rfl⟩ := rowBlocks_cover (N := 20) rfl win9_2.rect_emb_val (by decide +kernel) (fun _ => rfl) i
    exact ⟨t, flush9_2 t, View.emb_mem_set _ y⟩

end Cert.KernelIdeal.Gen

end
-- ==== Proof.KI.PoolMath.lean ====
import Mathlib.Data.EReal.Inv
import Mathlib.Data.Fintype.BigOperators
import Mathlib.Algebra.BigOperators.Fin
import Mathlib.Logic.Equiv.Fin.Basic

open scoped BigOperators

namespace Cert.PoolMath

def row {K M : ℕ} (t : Fin K) (n : Fin M) : Fin (K * M) :=
  ⟨M * t.val + n.val, by
    have h1 : M * t.val + n.val < M * t.val + M := Nat.add_lt_add_left n.isLt _
    have h2 : M * t.val + M = M * (t.val + 1) := (Nat.mul_succ M t.val).symm
    have h3 : M * (t.val + 1) ≤ M * K := Nat.mul_le_mul_left M t.isLt
    have h4 : M * K = K * M := Nat.mul_comm M K
    omega⟩

@[simp] theorem row_val {K M : ℕ} (t : Fin K) (n : Fin M) : (row t n).val = M * t.val + n.val := rfl

theorem sum_rows {K M : ℕ} (f : Fin (K * M) → EReal) : ∑ N, f N = ∑ t : Fin K, ∑ n : Fin M, f (row t n) := by
  rw [← Equiv.sum_comp finProdFinEquiv f, Fintype.sum_prod_type]
  refine Finset.sum_congr rfl fun t _ => Finset.sum_congr rfl fun n _ => congrArg f (Fin.ext ?_)
  show n.val + M * t.val = M * t.val + n.val
  exact Nat.add_comm _ _

theorem running {K : ℕ} (z : EReal) (B : Fin K → EReal) (r : (n : ℕ) → n < K → EReal)
    (h0 : ∀ h : 0 < K, r 0 h = z + B ⟨0, h⟩)
    (hs : ∀ (n : ℕ) (h : n + 1 < K), r (n + 1) h = r n (Nat.lt_of_succ_lt h) + B ⟨n + 1, h⟩) :
    ∀ (n : ℕ) (h : n < K), r n h = z + ∑ t : Fin (n + 1), B ⟨t.val, lt_of_lt_of_le t.isLt h⟩ := by
  intro n
  induction n with
  | zero =>
    intro h
    rw [h0 h, Fin.sum_univ_one]
    rfl
  | succ n ih =>
    intro h
    rw [hs n h, ih (Nat.lt_of_succ_lt h), add_assoc]
    refine congrArg (z + ·) ?_
    exact (Fin.sum_univ_castSucc (fun t : Fin (n + 1 + 1) => B ⟨t.val, lt_of_lt_of_le t.isLt h⟩)).symm

theorem running_last {K : ℕ} (z : EReal) (B : Fin (K + 1) → EReal) (r : (n : ℕ) → n < K + 1 → EReal)
    (h0 : ∀ h : 0 < K + 1, r 0 h = z + B ⟨0, h⟩)
    (hs : ∀ (n : ℕ) (h : n + 1 < K + 1), r (n + 1) h = r n (Nat.lt_of_succ_lt h) + B ⟨n + 1, h⟩) :
    r K (Nat.lt_succ_self K) = z + ∑ t : Fin (K + 1), B t := by
  rw [running z B r h0 hs K (Nat.lt_succ_self K)]

theorem sum_weighted {ι : Type} [Fintype ι] (p : ι → Prop) [DecidablePred p] (u : ι → EReal) :
    ∑ N, (if p N then (1 : EReal) else 0) * u N = ∑ N ∈ Finset.univ.filter p, u N := by
  rw [Finset.sum_filter]
  refine Finset.sum_congr rfl fun N _ => ?_
  by_cases h : p N
  · rw [if_pos h, if_pos h, one_mul]
  · rw [if_neg h, if_neg h, zero_mul]

theorem pooled {K M : ℕ} (z : EReal) (p : Fin ((K + 1) * M) → Prop) [DecidablePred p] (u : Fin ((K + 1) * M) → EReal)
    (r : (n : ℕ) → n < K + 1 → EReal)
    (h0 : ∀ h : 0 < K + 1, r 0 h = z + ∑ k : Fin M, (if p (row ⟨0, h⟩ k) then (1 : EReal) else 0) * u (row ⟨0, h⟩ k))
    (hs : ∀ (n : ℕ) (h : n + 1 < K + 1), r (n + 1) h = r n (Nat.lt_of_succ_lt h)
      + ∑ k : Fin M, (if p (row ⟨n + 1, h⟩ k) then (1 : EReal) else 0) * u (row ⟨n + 1, h⟩ k)) :
    r K (Nat.lt_succ_self K) = z + ∑ N ∈ Finset.univ.filter p, u N := by
  rw [running_last z (fun t => ∑ k : Fin M, (if p (row t k) then (1 : EReal) else 0) * u (row t k)) r h0 hs,
    ← sum_weighted p u, sum_rows]

theorem pooled_count {K M : ℕ} (z : EReal) (p : Fin ((K + 1) * M) → Prop) [DecidablePred p]
    (r : (n : ℕ) → n < K + 1 → EReal)
    (h0 : ∀ h : 0 < K + 1, r 0 h = z + ∑ k : Fin M, (if p (row ⟨0, h⟩ k) then (1 : EReal) else 0))
    (hs : ∀ (n : ℕ) (h : n + 1 < K + 1), r (n + 1) h = r n (Nat.lt_of_succ_lt h)
      + ∑ k : Fin M, (if p (row ⟨n + 1, h⟩ k) then (1 : EReal) else 0)) :
    r K (Nat.lt_succ_self K) = z + ∑ _N ∈ Finset.univ.filter p, (1 : EReal) := by
  refine pooled z p (fun _ => 1) r (fun h => ?_) (fun n h => ?_)
  · rw [h0 h]; simp only [mul_one]
  · rw [hs n h]; simp only [mul_one]

def row20 (t : Fin 20) (n : Fin 5000) : Fin 100000 := ⟨5000 * t.val + n.val, by omega⟩

@[simp] theorem row20_val (t : Fin 20) (n : Fin 5000) : (row20 t n).val = 5000 * t.val + n.val := rfl

theorem pooled20 (z : EReal) (p : Fin 100000 → Prop) [DecidablePred p] (u : Fin 100000 → EReal)
    (r : (n : ℕ) → n < 20 → EReal)
    (h0 : ∀ h : 0 < 20, r 0 h = z + ∑ k : Fin 5000, (if p (row20 ⟨0, h⟩ k) then (1 : EReal) else 0) * u (row20 ⟨0, h⟩ k))
    (hs : ∀ (n : ℕ) (h : n + 1 < 20), r (n + 1) h = r n (Nat.lt_of_succ_lt h)
      + ∑ k : Fin 5000, (if p (row20 ⟨n + 1, h⟩ k) then (1 : EReal) else 0) * u (row20 ⟨n + 1, h⟩ k)) :
    r 19 (by decide) = z + ∑ N ∈ Finset.univ.filter p, u N :=
  pooled (K := 19) (M := 5000) z p u r h0 hs

theorem pooled_count20 (z : EReal) (p : Fin 100000 → Prop) [DecidablePred p]
    (r : (n : ℕ) → n < 20 → EReal)
    (h0 : ∀ h : 0 < 20, r 0 h = z + ∑ k : Fin 5000, (if p (row20 ⟨0, h⟩ k) then (1 : EReal) else 0))
    (hs : ∀ (n : ℕ) (h : n + 1 < 20), r (n + 1) h = r n (Nat.lt_of_succ_lt h)
      + ∑ k : Fin 5000, (if p (row20 ⟨n + 1, h⟩ k) then (1 : EReal) else 0)) :
    r 19 (by decide) = z + ∑ _N ∈ Finset.univ.filter p, (1 : EReal) :=
  pooled_count (K := 19) (M := 5000) z p r h0 hs

end Cert.PoolMath
-- ==== Proof.KI.PoolPay.lean ====
import proofs.«419567_j13065290514766_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Gen

open Idealize.ShloMosaic Idealize.ShloMosaic.ValueIdx

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem word_eq_group_iff (w : BitVec 32) (g : ℕ) (hg : g < 64) : w = BitVec.ofNat 32 g ↔ w.toInt = (g : ℤ) := by
  constructor
  · rintro rfl
    have hn : (BitVec.ofNat 32 g).toNat = g := by
      rw [BitVec.toNat_ofNat]
      exact Nat.mod_eq_of_lt (by omega)
    rw [BitVec.toInt_eq_toNat_of_lt (by rw [hn]; omega), hn]
  · intro h
    rw [← BitVec.ofInt_toInt (x := w), h, BitVec.ofInt_natCast]

theorem cmp_word_toInt (w : BitVec 32) (g : ℕ) (hg : g < 64) :
    ((IntOp.cmpi .eq w (BitVec.ofNat 32 g)).setWidth 32).toInt = if w.toInt = (g : ℤ) then 1 else 0 := by
  unfold IntOp.cmpi
  by_cases h : w = BitVec.ofNat 32 g
  · rw [if_pos ((word_eq_group_iff w g hg).1 h)]
    subst h
    simp
  · rw [if_neg (fun h' => h ((word_eq_group_iff w g hg).2 h'))]
    have hb : (w == BitVec.ofNat 32 g) = false := by simpa using h
    simp [hb]

variable [Facts]

theorem k10_pay3_apply (v4 : Vec Ideal S5000x1 .i32) (n : Fin 5000) (g : Fin 64) :
    k10_pay3 (F := Ideal) v4 (ix2 n g) = if (v4 (ix2 n (0 : Fin 1))).toInt = (g.val : ℤ) then (1 : EReal) else 0 := by
  unfold k10_pay3
  show ((((IntOp.cmpi .eq (broadcastTo S5000x64 (shapeCast S5000x1 v4 shapeCasts_S5000x1_S5000x1) broadcasts_S5000x1_S5000x64 (ix2 n g))
      (iota .tc S5000x64 32 [1] iota_S5000x64_d1_w32 (ix2 n g))).setWidth 32).toInt : ℝ) : EReal) = _
  rw [shapeCast_self, broadcastTo_a1_ab_apply, iota_single_apply]
  show ((((IntOp.cmpi .eq (v4 (ix2 n (0 : Fin 1))) (BitVec.ofNat 32 g.val)).setWidth 32).toInt : ℝ) : EReal) = _
  rw [cmp_word_toInt _ _ g.isLt]
  split
  · simp
  · simp

theorem lhs_pool_0 (i : S64x32.Idx) (q : dot_S64x5000_S5000x32_S64x32_1_0_0_1_n_n.contr.Idx) :
    (dot_S64x5000_S5000x32_S64x32_1_0_0_1_n_n.lhsIdx i q 0).val = (i 0).val := by
  unfold DotDims.lhsIdx
  rw [dif_neg (show ¬(0 : Fin S64x5000.rank) ∈ dot_S64x5000_S5000x32_S64x32_1_0_0_1_n_n.lhsBatch by decide), dif_pos (show (0 : Fin S64x5000.rank) ∈ dot_S64x5000_S5000x32_S64x32_1_0_0_1_n_n.lhsNonContracting by decide)]
  rfl

theorem lhs_pool_1 (i : S64x32.Idx) (q : dot_S64x5000_S5000x32_S64x32_1_0_0_1_n_n.contr.Idx) :
    (dot_S64x5000_S5000x32_S64x32_1_0_0_1_n_n.lhsIdx i q 1).val = (q ⟨0, by decide⟩).val :=
  dot_S64x5000_S5000x32_S64x32_1_0_0_1_n_n.lhsIdx_val_of_single rfl i q

theorem rhs_pool_0 (i : S64x32.Idx) (q : dot_S64x5000_S5000x32_S64x32_1_0_0_1_n_n.contr.Idx) :
    (dot_S64x5000_S5000x32_S64x32_1_0_0_1_n_n.rhsIdx i q 0).val = (q ⟨0, by decide⟩).val :=
  dot_S64x5000_S5000x32_S64x32_1_0_0_1_n_n.rhsIdx_val_of_single rfl i q

theorem rhs_pool_1 (i : S64x32.Idx) (q : dot_S64x5000_S5000x32_S64x32_1_0_0_1_n_n.contr.Idx) :
    (dot_S64x5000_S5000x32_S64x32_1_0_0_1_n_n.rhsIdx i q 1).val = (i 1).val := by
  unfold DotDims.rhsIdx
  rw [dif_neg (show ¬(1 : Fin S5000x32.rank) ∈ dot_S64x5000_S5000x32_S64x32_1_0_0_1_n_n.rhsBatch by decide), dif_pos (show (1 : Fin S5000x32.rank) ∈ dot_S64x5000_S5000x32_S64x32_1_0_0_1_n_n.rhsNonContracting by decide)]
  rfl

theorem pool_matmul_apply (L : FVec Ideal S64x5000 .f32) (R : FVec Ideal S5000x32 .f32) (g : Fin 64) (f : Fin 32) :
    matmul dot_S64x5000_S5000x32_S64x32_1_0_0_1_n_n none L R (constant (F := Ideal) S64x32 .f32 0x00000000#32) (ix2 g f)
      = ∑ k : Fin 5000, L (ix2 g k) * R (ix2 k f) := by
  simp only [matmul]
  rw [Ideal.matmul_constant_zero_apply, ← Equiv.sum_comp (ValueIdx.contrEquiv1 dot_S64x5000_S5000x32_S64x32_1_0_0_1_n_n 5000 rfl rfl).symm]
  refine Finset.sum_congr rfl fun k _ => ?_
  have hk := ValueIdx.contrEquiv1_symm_val dot_S64x5000_S5000x32_S64x32_1_0_0_1_n_n 5000 rfl rfl k
  have el : dot_S64x5000_S5000x32_S64x32_1_0_0_1_n_n.lhsIdx (ix2 g f) ((ValueIdx.contrEquiv1 dot_S64x5000_S5000x32_S64x32_1_0_0_1_n_n 5000 rfl rfl).symm k) = ix2 g k := funext fun a => Fin.ext (by
    match a with
    | ⟨0, _⟩ => exact lhs_pool_0 _ _
    | ⟨1, _⟩ => exact (lhs_pool_1 _ _).trans hk)
  have er : dot_S64x5000_S5000x32_S64x32_1_0_0_1_n_n.rhsIdx (ix2 g f) ((ValueIdx.contrEquiv1 dot_S64x5000_S5000x32_S64x32_1_0_0_1_n_n 5000 rfl rfl).symm k) = ix2 k f := funext fun a => Fin.ext (by
    match a with
    | ⟨0, _⟩ => exact (rhs_pool_0 _ _).trans hk
    | ⟨1, _⟩ => exact rhs_pool_1 _ _)
  rw [el, er]

theorem k10_pay4_apply (v4 : Vec Ideal S5000x1 .i32) (v10 : Vec Ideal S64x32 .f32) (v12 : Vec Ideal S5000x32 .f32)
    (g : Fin 64) (f : Fin 32) :
    k10_pay4 (F := Ideal) v4 v10 v12 (ix2 g f)
      = v10 (ix2 g f) + ∑ k : Fin 5000, (if (v4 (ix2 k (0 : Fin 1))).toInt = (g.val : ℤ) then (1 : EReal) else 0) * v12 (ix2 k f) := by
  unfold k10_pay4
  dsimp only
  rw [shapeCast_self, addf_apply, shapeCast_self, pool_matmul_apply]
  refine congrArg (v10 (ix2 g f) + ·) (Finset.sum_congr rfl fun k _ => ?_)
  rw [transpose_ix2_apply, k10_pay3_apply]

theorem k10_pay5_apply (v4 : Vec Ideal S5000x1 .i32) (v19 : Vec Ideal S64x1 .f32) (g : Fin 64) (u : Fin 1) :
    k10_pay5 (F := Ideal) v4 v19 (ix2 g u)
      = v19 (ix2 g u) + ∑ k : Fin 5000, (if (v4 (ix2 k (0 : Fin 1))).toInt = (g.val : ℤ) then (1 : EReal) else 0) := by
  unfold k10_pay5
  dsimp only
  rw [shapeCast_self, addf_apply, shapeCast_a_a1_apply]
  refine congrArg (v19 (ix2 g u) + ·) ?_
  refine (Ideal.multiReduction_add_single (k10_pay3 (F := Ideal) v4) 0x00000000#32 reduces_S5000x64_S64 _ _ (ix1 g)).trans ?_
  show ∑ k : Fin 5000, k10_pay3 (F := Ideal) v4 (reduces_S5000x64_S64.lift (ix1 g) k) = _
  refine Finset.sum_congr rfl fun k _ => ?_
  have e : reduces_S5000x64_S64.lift (ix1 g) k = ix2 k g := funext fun a => Fin.ext (by
    match a with
    | ⟨0, _⟩ => rfl
    | ⟨1, _⟩ => rfl)
  rw [e, k10_pay3_apply]

theorem lhs_cls_0 (i : S64x10.Idx) (q : dot_S64x32_S32x10_S64x10_1_0_0_1_n_n.contr.Idx) :
    (dot_S64x32_S32x10_S64x10_1_0_0_1_n_n.lhsIdx i q 0).val = (i 0).val := by
  unfold DotDims.lhsIdx
  rw [dif_neg (show ¬(0 : Fin S64x32.rank) ∈ dot_S64x32_S32x10_S64x10_1_0_0_1_n_n.lhsBatch by decide), dif_pos (show (0 : Fin S64x32.rank) ∈ dot_S64x32_S32x10_S64x10_1_0_0_1_n_n.lhsNonContracting by decide)]
  rfl

theorem lhs_cls_1 (i : S64x10.Idx) (q : dot_S64x32_S32x10_S64x10_1_0_0_1_n_n.contr.Idx) :
    (dot_S64x32_S32x10_S64x10_1_0_0_1_n_n.lhsIdx i q 1).val = (q ⟨0, by decide⟩).val :=
  dot_S64x32_S32x10_S64x10_1_0_0_1_n_n.lhsIdx_val_of_single rfl i q

theorem rhs_cls_0 (i : S64x10.Idx) (q : dot_S64x32_S32x10_S64x10_1_0_0_1_n_n.contr.Idx) :
    (dot_S64x32_S32x10_S64x10_1_0_0_1_n_n.rhsIdx i q 0).val = (q ⟨0, by decide⟩).val :=
  dot_S64x32_S32x10_S64x10_1_0_0_1_n_n.rhsIdx_val_of_single rfl i q

theorem rhs_cls_1 (i : S64x10.Idx) (q : dot_S64x32_S32x10_S64x10_1_0_0_1_n_n.contr.Idx) :
    (dot_S64x32_S32x10_S64x10_1_0_0_1_n_n.rhsIdx i q 1).val = (i 1).val := by
  unfold DotDims.rhsIdx
  rw [dif_neg (show ¬(1 : Fin S32x10.rank) ∈ dot_S64x32_S32x10_S64x10_1_0_0_1_n_n.rhsBatch by decide), dif_pos (show (1 : Fin S32x10.rank) ∈ dot_S64x32_S32x10_S64x10_1_0_0_1_n_n.rhsNonContracting by decide)]
  rfl

theorem cls_matmul_apply (L : FVec Ideal S64x32 .f32) (R : FVec Ideal S32x10 .f32) (g : Fin 64) (o : Fin 10) :
    matmul dot_S64x32_S32x10_S64x10_1_0_0_1_n_n none L R (constant (F := Ideal) S64x10 .f32 0x00000000#32) (ix2 g o)
      = ∑ k : Fin 32, L (ix2 g k) * R (ix2 k o) := by
  simp only [matmul]
  rw [Ideal.matmul_constant_zero_apply, ← Equiv.sum_comp (ValueIdx.contrEquiv1 dot_S64x32_S32x10_S64x10_1_0_0_1_n_n 32 rfl rfl).symm]
  refine Finset.sum_congr rfl fun k _ => ?_
  have hk := ValueIdx.contrEquiv1_symm_val dot_S64x32_S32x10_S64x10_1_0_0_1_n_n 32 rfl rfl k
  have el : dot_S64x32_S32x10_S64x10_1_0_0_1_n_n.lhsIdx (ix2 g o) ((ValueIdx.contrEquiv1 dot_S64x32_S32x10_S64x10_1_0_0_1_n_n 32 rfl rfl).symm k) = ix2 g k := funext fun a => Fin.ext (by
    match a with
    | ⟨0, _⟩ => exact lhs_cls_0 _ _
    | ⟨1, _⟩ => exact (lhs_cls_1 _ _).trans hk)
  have er : dot_S64x32_S32x10_S64x10_1_0_0_1_n_n.rhsIdx (ix2 g o) ((ValueIdx.contrEquiv1 dot_S64x32_S32x10_S64x10_1_0_0_1_n_n 32 rfl rfl).symm k) = ix2 k o := funext fun a => Fin.ext (by
    match a with
    | ⟨0, _⟩ => exact (rhs_cls_0 _ _).trans hk
    | ⟨1, _⟩ => exact rhs_cls_1 _ _)
  rw [el, er]

theorem k10_pay6_apply (v29 : Vec Ideal S64x32 .f32) (v30 : Vec Ideal S64x1 .f32) (v35 : Vec Ideal S32x10 .f32)
    (v37 : Vec Ideal S1x10 .f32) (g : Fin 64) (o : Fin 10) :
    k10_pay6 (F := Ideal) v29 v30 v35 v37 (ix2 g o)
      = (∑ k : Fin 32, Ideal.div (v29 (ix2 g k)) (max (v30 (ix2 g (0 : Fin 1))) (Ideal.ofBits .f32 0x3F800000#32)) * v35 (ix2 k o))
        + v37 (ix2 (0 : Fin 1) o) := by
  unfold k10_pay6
  rw [addf_apply, cls_matmul_apply, shapeCast_self, broadcastTo_1b_ab_apply]
  refine congrArg (· + v37 (ix2 (0 : Fin 1) o)) (Finset.sum_congr rfl fun k _ => ?_)
  rw [divf_apply, broadcastTo_a1_ab_apply, maximumf_apply, broadcast_apply]
  rfl

end Cert.KernelIdeal.Gen

end
-- ==== Proof.Spec.lean ====
import Idealize.ShloMosaic.PureOps.Ideal
import Idealize.ShloMosaic.Lib.ValueIdx

noncomputable section

namespace Cert.Spec

open Idealize.ShloMosaic

abbrev Sh (a b : Nat) : Shape := ⟨2, ![a, b]⟩

abbrev RArr (a b : Nat) : Type := (Sh a b).Idx → EReal

def rowOf (N : Nat) (hN : 0 < N) (w : BitVec 32) : Fin N := ⟨min w.toInt.toNat (N - 1), by omega⟩

end Cert.Spec

end
-- ==== Proof.LibGatherScatter.lean ====
import Idealize.ShloMosaic.PureOps.Ideal
import Idealize.ShloMosaic.Lib.ValueIdx
import proofs.«419567_j13065290514766_1_alg».proof.Proof.Spec

noncomputable section

open scoped BigOperators

namespace Cert.LibGS

open Idealize.ShloMosaic Idealize.ShloMosaic.ValueIdx Cert.Spec

theorem idx2_val_congr {a b : Nat} (j : (Sh a b).Idx) (X Y : Fin 2) (h : X = Y) : (j X).val = (j Y).val := by
  subst h; rfl

section ScatterRows
variable {N n C : Nat} (d : ScatterDims (Sh N C) (Sh n 1) (Sh n C))

theorem srows_scatter_mem (huw : d.updateWindowDims = [1]) (X : Fin (Sh n C).rank) (hX : X ∈ d.uScatter) : X = (0 : Fin 2) := by
  have h1 : X ∉ d.updateWindowDims := by
    have := (List.mem_filter.1 hX).2
    simpa using this
  rw [huw] at h1
  match X with
  | ⟨0, _⟩ => rfl
  | ⟨1, _⟩ => exact absurd (List.mem_singleton.mpr rfl) h1

theorem srows_siIdx (huw : d.updateWindowDims = [1]) (hsd : d.scatterDimsToOperandDims = [0]) (hivd : d.indexVectorDim = 1)
    (j : (Sh n C).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact idx2_val_congr j _ 0 (srows_scatter_mem d huw _ (List.getElem_mem _))
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

theorem srows_start_zero (huw : d.updateWindowDims = [1]) (hsd : d.scatterDimsToOperandDims = [0]) (hivd : d.indexVectorDim = 1)
    (idx : IVec (Sh n 1) 32) (j : (Sh n C).Idx) : d.start j idx (0 : Fin 2) = (idx (ix2 (j 0) 0)).toInt := by
  have hm : (0 : Fin 2) ∈ d.scatterDimsToOperandDims := by rw [hsd]; exact List.mem_singleton.mpr rfl
  unfold ScatterDims.start
  rw [dif_pos hm, srows_siIdx d huw hsd hivd]
  rfl

theorem srows_start_one (hsd : d.scatterDimsToOperandDims = [0])
    (idx : IVec (Sh n 1) 32) (j : (Sh n C).Idx) : d.start j idx (1 : Fin 2) = 0 := by
  have hm : (1 : Fin 2) ∉ d.scatterDimsToOperandDims := by rw [hsd]; show (1 : Fin 2) ∉ [(0 : Fin 2)]; decide
  unfold ScatterDims.start
  rw [dif_neg hm]

theorem srows_window_zero (hiw : d.insertedWindowDims = [0]) (j : (Sh n C).Idx) : d.window j (0 : Fin 2) = 0 := by
  have hk : (0 : Fin 2) ∉ d.sKept := by
    intro h
    have := (List.mem_filter.1 h).2
    rw [hiw] at this
    simp at this
  unfold ScatterDims.window
  rw [dif_neg hk]

theorem srows_window_one (huw : d.updateWindowDims = [1]) (hiw : d.insertedWindowDims = [0]) (j : (Sh n C).Idx) :
    d.window j (1 : Fin 2) = (j 1).val := by
  have hk : (1 : Fin 2) ∈ d.sKept := by
    refine List.mem_filter.2 ⟨List.mem_finRange _, ?_⟩
    rw [hiw]
    show decide ((1 : Fin 2) ∉ [(0 : Fin 2)]) = true
    decide
  have hall : ∀ X ∈ d.updateWindowDims, X = (1 : Fin 2) := by rw [huw]; simp
  unfold ScatterDims.window
  rw [dif_pos hk]
  exact idx2_val_congr j _ 1 (hall _ (List.getElem_mem _))

end ScatterRows

section ScatterRows2
variable {N n C : Nat} (d : ScatterDims (Sh N C) (Sh n 1) (Sh n C))

theorem srows_resultIdx_iff (huw : d.updateWindowDims = [1]) (hiw : d.insertedWindowDims = [0])
    (hsd : d.scatterDimsToOperandDims = [0]) (hivd : d.indexVectorDim = 1)
    (idx : IVec (Sh n 1) 32) (j : (Sh n C).Idx) (t : (Sh N C).Idx) :
    d.resultIdx? j idx = some t ↔ (idx (ix2 (j 0) 0)).toInt = ((t 0).val : ℤ) ∧ (j 1).val = (t 1).val := by
  have hs0 := srows_start_zero d huw hsd hivd idx j
  have hs1 := srows_start_one d hsd idx j
  have hw0 := srows_window_zero d hiw j
  have hw1 := srows_window_one d huw hiw j
  have ht0 : (t 0).val < N := idx2_lt0 t
  have ht1 : (t 1).val < C := idx2_lt1 t
  constructor
  · intro h
    unfold ScatterDims.resultIdx? at h
    split at h
    · rename_i hh
      have hf := Option.some.inj h
      have h0 : (d.start j idx (0 : Fin 2) + d.window j (0 : Fin 2)).toNat = (t 0).val :=
        congrArg (fun f : (Sh N C).Idx => (f 0).val) hf
      have h1 : (d.start j idx (1 : Fin 2) + d.window j (1 : Fin 2)).toNat = (t 1).val :=
        congrArg (fun f : (Sh N C).Idx => (f 1).val) hf
      have hh0 := (hh (0 : Fin 2)).1
      rw [hs0, hw0] at h0 hh0
      rw [hs1, hw1] at h1
      constructor <;> omega
    · exact absurd h (by simp)
  · rintro ⟨h0, h1⟩
    have hh : ∀ a, 0 ≤ d.start j idx a + d.window j a ∧ d.start j idx a + d.window j a < (Sh N C).size a := by
      intro a
      match a with
      | ⟨0, _⟩ =>
        show 0 ≤ d.start j idx (0 : Fin 2) + d.window j (0 : Fin 2) ∧ d.start j idx (0 : Fin 2) + d.window j (0 : Fin 2) < (N : ℤ)
        rw [hs0, hw0, h0]
        omega
      | ⟨1, _⟩ =>
        show 0 ≤ d.start j idx (1 : Fin 2) + d.window j (1 : Fin 2) ∧ d.start j idx (1 : Fin 2) + d.window j (1 : Fin 2) < (C : ℤ)
        rw [hs1, hw1, h1]
        omega
    unfold ScatterDims.resultIdx?
    rw [dif_pos hh]
    congr 1
    funext a
    apply Fin.ext
    match a with
    | ⟨0, _⟩ =>
      show (d.start j idx (0 : Fin 2) + d.window j (0 : Fin 2)).toNat = (t 0).val
      rw [hs0, hw0, h0]
      omega
    | ⟨1, _⟩ =>
      show (d.start j idx (1 : Fin 2) + d.window j (1 : Fin 2)).toNat = (t 1).val
      rw [hs1, hw1, h1]
      omega

end ScatterRows2

section ScatterRows3
variable {N n C : Nat} (d : ScatterDims (Sh N C) (Sh n 1) (Sh n C))

/-- A scatter-add into rows reads each start word signed and drops an update whose word is outside the table:
    row `i` receives exactly the updates whose word equals `i`. -/
theorem scatterAdd_rows_gen (huw : d.updateWindowDims = [1]) (hiw : d.insertedWindowDims = [0])
    (hsd : d.scatterDimsToOperandDims = [0]) (hivd : d.indexVectorDim = 1)
    (x : RArr N C) (idx : IVec (Sh n 1) 32) (u : RArr n C) (i : Fin N) (c : Fin C) :
    Ideal.hostScatterAdd d x idx u (ix2 i c)
      = x (ix2 i c) + ∑ e ∈ Finset.univ.filter (fun e : Fin n => (idx (ix2 e 0)).toInt = (i.val : ℤ)), u (ix2 e c) := by
  have key := fun j => srows_resultIdx_iff d huw hiw hsd hivd idx j (ix2 i c)
  have back : ∀ j : (Sh n C).Idx, (j 1).val = c.val → ix2 (j 0) c = j := by
    intro j hj
    funext a
    match a with
    | ⟨0, _⟩ => rfl
    | ⟨1, _⟩ => exact Fin.ext hj.symm
  unfold Ideal.hostScatterAdd
  congr 1
  refine Finset.sum_bij' (fun j _ => j 0) (fun e _ => ix2 e c) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e c)).2 ⟨(Finset.mem_filter.1 he).2, rfl⟩⟩
  · intro j hj
    exact back j ((key j).1 (Finset.mem_filter.1 hj).2).2
  · intro e he
    rfl
  · intro j hj
    exact congrArg u (back j ((key j).1 (Finset.mem_filter.1 hj).2).2).symm

end ScatterRows3

section ScatterVec
variable {N n : Nat} (d : ScatterDims ⟨1, ![N]⟩ (Sh n 1) ⟨1, ![n]⟩)

theorem svec_siIdx (hsd : d.scatterDimsToOperandDims = [0]) (hivd : d.indexVectorDim = 1)
    (j : (⟨1, ![n]⟩ : Shape).Idx) (k : Fin d.scatterDimsToOperandDims.length) : d.siIdx j k = ix2 (j 0) 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hivd])]
    apply Fin.ext
    have hlen : d.scatterDimsToOperandDims.length = 1 := by rw [hsd]; rfl
    have hk : k.val < d.scatterDimsToOperandDims.length := k.isLt
    show k.val = 0
    omega

theorem svec_start (hsd : d.scatterDimsToOperandDims = [0]) (hivd : d.indexVectorDim = 1)
    (idx : IVec (Sh n 1) 32) (j : (⟨1, ![n]⟩ : Shape).Idx) : d.start j idx (0 : Fin 1) = (idx (ix2 (j 0) 0)).toInt := by
  have hm : (0 : Fin 1) ∈ d.scatterDimsToOperandDims := by rw [hsd]; exact List.mem_singleton.mpr rfl
  unfold ScatterDims.start
  rw [dif_pos hm, svec_siIdx d hsd hivd]
  rfl

theorem svec_window (hiw : d.insertedWindowDims = [0]) (j : (⟨1, ![n]⟩ : Shape).Idx) : d.window j (0 : Fin 1) = 0 := by
  have hk : (0 : Fin 1) ∉ d.sKept := by
    intro h
    have := (List.mem_filter.1 h).2
    rw [hiw] at this
    simp at this
  unfold ScatterDims.window
  rw [dif_neg hk]

theorem svec_resultIdx_iff (hiw : d.insertedWindowDims = [0]) (hsd : d.scatterDimsToOperandDims = [0])
    (hivd : d.indexVectorDim = 1) (idx : IVec (Sh n 1) 32) (j : (⟨1, ![n]⟩ : Shape).Idx) (t : (⟨1, ![N]⟩ : Shape).Idx) :
    d.resultIdx? j idx = some t ↔ (idx (ix2 (j 0) 0)).toInt = ((t 0).val : ℤ) := by
  have hs0 := svec_start d hsd hivd idx j
  have hw0 := svec_window d hiw j
  have ht0 : (t 0).val < N := (t 0).isLt
  constructor
  · intro h
    unfold ScatterDims.resultIdx? at h
    split at h
    · rename_i hh
      have hf := Option.some.inj h
      have h0 : (d.start j idx (0 : Fin 1) + d.window j (0 : Fin 1)).toNat = (t 0).val :=
        congrArg (fun f : (⟨1, ![N]⟩ : Shape).Idx => (f 0).val) hf
      have hh0 := (hh (0 : Fin 1)).1
      rw [hs0, hw0] at h0 hh0
      omega
    · exact absurd h (by simp)
  · intro h0
    have hh : ∀ a, 0 ≤ d.start j idx a + d.window j a ∧ d.start j idx a + d.window j a < (⟨1, ![N]⟩ : Shape).size a := by
      intro a
      match a with
      | ⟨0, _⟩ =>
        show 0 ≤ d.start j idx (0 : Fin 1) + d.window j (0 : Fin 1) ∧ d.start j idx (0 : Fin 1) + d.window j (0 : Fin 1) < (N : ℤ)
        rw [hs0, hw0, h0]
        omega
    unfold ScatterDims.resultIdx?
    rw [dif_pos hh]
    congr 1
    funext a
    apply Fin.ext
    match a with
    | ⟨0, _⟩ =>
      show (d.start j idx (0 : Fin 1) + d.window j (0 : Fin 1)).toNat = (t 0).val
      rw [hs0, hw0, h0]
      omega

/-- The same for a scatter-add into a vector's entries. -/
theorem scatterAdd_vec_gen (hiw : d.insertedWindowDims = [0]) (hsd : d.scatterDimsToOperandDims = [0])
    (hivd : d.indexVectorDim = 1) (x : (⟨1, ![N]⟩ : Shape).Idx → EReal) (idx : IVec (Sh n 1) 32)
    (u : (⟨1, ![n]⟩ : Shape).Idx → EReal) (i : Fin N) :
    Ideal.hostScatterAdd d x idx u (ix1 i)
      = x (ix1 i) + ∑ e ∈ Finset.univ.filter (fun e : Fin n => (idx (ix2 e 0)).toInt = (i.val : ℤ)), u (ix1 e) := by
  have key := fun j => svec_resultIdx_iff d hiw hsd hivd idx j (ix1 i)
  unfold Ideal.hostScatterAdd
  congr 1
  refine Finset.sum_bij' (fun j _ => j 0) (fun e _ => ix1 e) ?_ ?_ ?_ ?_ ?_
  · intro j hj
    exact Finset.mem_filter.2 ⟨Finset.mem_univ _, (key j).1 (Finset.mem_filter.1 hj).2⟩
  · intro e he
    exact Finset.mem_filter.2 ⟨Finset.mem_univ _, (key (ix1 e)).2 (Finset.mem_filter.1 he).2⟩
  · intro j hj
    exact (eq_ix1 j).symm
  · intro e he
    rfl
  · intro j hj
    exact congrArg u (eq_ix1 j)

end ScatterVec

end Cert.LibGS

end
-- ==== Proof.KI.PoolRef.lean ====
import proofs.«419567_j13065290514766_1_alg».proof.ReferenceIdeal
import proofs.«419567_j13065290514766_1_alg».proof.Proof.Gen.ReferenceIdeal
import proofs.«419567_j13065290514766_1_alg».proof.Proof.LibGatherScatter
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.PoolRef

open Idealize.ShloMosaic Idealize.ShloMosaic.ValueIdx Cert.ReferenceIdeal Cert.ReferenceIdeal.Facts₀ Cert.ReferenceIdeal.Facts

def refPool (h : FVec Ideal S100000x32 .f32) (ids : IVec S100000x1 32) (W : FVec Ideal S32x10 .f32) (b : FVec Ideal S1x10 .f32) :
    FVec Ideal S64x10 .f32 :=
  addf (Host.dotGeneral dot_S64x32_S32x10_S64x10_1_0_0_1_n_n none
          (Host.divf (Host.scatterAdd scatter_S64x32_S100000x1_S100000x32_1_0_0_1 (broadcastInDim S64x32 ![] bcast_S_S64x32 (constant (F := Ideal) S_ .f32 0x00000000#32)) ids h)
                     (broadcastInDim S64x32 ![0, 1] bcast_S64x1_S64x32_0_1 (broadcastInDim S64x1 ![0] bcast_S64_S64x1_0
                        (maximumf (Host.scatterAdd scatter_S64_S100000x1_S100000_n_0_0_1 (broadcastInDim S64 ![] bcast_S_S64 (constant (F := Ideal) S_ .f32 0x00000000#32)) ids (broadcastInDim S100000 ![] bcast_S_S100000 (constant (F := Ideal) S_ .f32 0x3F800000#32)))
                                  (broadcastInDim S64 ![] bcast_S_S64 (constant (F := Ideal) S_ .f32 0x3F800000#32))))))
          W)
        (broadcastInDim S64x10 ![0, 1] bcast_S1x10_S64x10_0_1 b)

theorem spread_apply {t : Shape} (hb : S_.BroadcastsInDim t (![] : Fin 0 → Fin t.rank)) (w : BitVec 32) (i : t.Idx) :
    broadcastInDim t ![] hb (constant (F := Ideal) S_ .f32 w) i = Ideal.ofBits .f32 w := by
  rw [broadcastInDim_apply _ hb _ i ix0 (fun a => a.elim0), constant_apply]

theorem ofBits_one_f32 : Ideal.ofBits .f32 0x3F800000#32 = 1 := by
  simp [Ideal.ofBits, Ideal.ieee, -EReal.coe_mul]; norm_num

theorem sums_apply (h : FVec Ideal S100000x32 .f32) (ids : IVec S100000x1 32) (g : Fin 64) (k : Fin 32) :
    Host.scatterAdd scatter_S64x32_S100000x1_S100000x32_1_0_0_1 (broadcastInDim S64x32 ![] bcast_S_S64x32 (constant (F := Ideal) S_ .f32 0x00000000#32)) ids h (ix2 g k)
      = ∑ e ∈ Finset.univ.filter (fun e : Fin 100000 => (ids (ix2 e (0 : Fin 1))).toInt = (g.val : ℤ)), h (ix2 e k) := by
  show Ideal.hostScatterAdd scatter_S64x32_S100000x1_S100000x32_1_0_0_1 _ ids h (ix2 g k) = _
  rw [Cert.LibGS.scatterAdd_rows_gen (N := 64) (n := 100000) (C := 32) scatter_S64x32_S100000x1_S100000x32_1_0_0_1 rfl rfl rfl rfl _ ids h g k,
    spread_apply, Ideal.ofBits_zero_f32, zero_add]

theorem counts_apply (ids : IVec S100000x1 32) (g : Fin 64) :
    Host.scatterAdd scatter_S64_S100000x1_S100000_n_0_0_1 (broadcastInDim S64 ![] bcast_S_S64 (constant (F := Ideal) S_ .f32 0x00000000#32)) ids
        (broadcastInDim S100000 ![] bcast_S_S100000 (constant (F := Ideal) S_ .f32 0x3F800000#32)) (ix1 g)
      = ∑ _e ∈ Finset.univ.filter (fun e : Fin 100000 => (ids (ix2 e (0 : Fin 1))).toInt = (g.val : ℤ)), (1 : EReal) := by
  show Ideal.hostScatterAdd scatter_S64_S100000x1_S100000_n_0_0_1 _ ids _ (ix1 g) = _
  rw [Cert.LibGS.scatterAdd_vec_gen (N := 64) (n := 100000) scatter_S64_S100000x1_S100000_n_0_0_1 rfl rfl rfl _ ids _ g,
    spread_apply, Ideal.ofBits_zero_f32, zero_add]
  refine Finset.sum_congr rfl fun e _ => ?_
  rw [spread_apply, ofBits_one_f32]

theorem rowSpread_apply (v : FVec Ideal S64 .f32) (g : Fin 64) (k : Fin 32) :
    broadcastInDim S64x32 ![0, 1] bcast_S64x1_S64x32_0_1 (broadcastInDim S64x1 ![0] bcast_S64_S64x1_0 v) (ix2 g k) = v (ix1 g) := by
  rw [broadcastInDim_apply _ bcast_S64x1_S64x32_0_1 _ (ix2 g k) (ix2 g (0 : Fin 1)) (fun a => match a with
    | ⟨0, _⟩ => by show g.val = if (64 : Nat) = 1 then 0 else g.val; rw [if_neg (by decide)]
    | ⟨1, _⟩ => by show 0 = if (1 : Nat) = 1 then 0 else k.val; rw [if_pos rfl]),
    broadcastInDim_apply _ bcast_S64_S64x1_0 v (ix2 g (0 : Fin 1)) (ix1 g) (fun a => match a with
    | ⟨0, _⟩ => by show g.val = if (64 : Nat) = 1 then 0 else g.val; rw [if_neg (by decide)])]

theorem biasSpread_apply (b : FVec Ideal S1x10 .f32) (g : Fin 64) (o : Fin 10) :
    broadcastInDim S64x10 ![0, 1] bcast_S1x10_S64x10_0_1 b (ix2 g o) = b (ix2 (0 : Fin 1) o) :=
  broadcastInDim_apply _ bcast_S1x10_S64x10_0_1 b (ix2 g o) (ix2 (0 : Fin 1) o) (fun a => match a with
    | ⟨0, _⟩ => by show 0 = if (1 : Nat) = 1 then 0 else g.val; rw [if_pos rfl]
    | ⟨1, _⟩ => by show o.val = if (10 : Nat) = 1 then 0 else o.val; rw [if_neg (by decide)])

theorem lhs_ref_0 (i : S64x10.Idx) (q : dot_S64x32_S32x10_S64x10_1_0_0_1_n_n.contr.Idx) :
    (dot_S64x32_S32x10_S64x10_1_0_0_1_n_n.lhsIdx i q 0).val = (i 0).val := by
  unfold DotDims.lhsIdx
  rw [dif_neg (show ¬(0 : Fin S64x32.rank) ∈ dot_S64x32_S32x10_S64x10_1_0_0_1_n_n.lhsBatch by decide), dif_pos (show (0 : Fin S64x32.rank) ∈ dot_S64x32_S32x10_S64x10_1_0_0_1_n_n.lhsNonContracting by decide)]
  rfl

theorem lhs_ref_1 (i : S64x10.Idx) (q : dot_S64x32_S32x10_S64x10_1_0_0_1_n_n.contr.Idx) :
    (dot_S64x32_S32x10_S64x10_1_0_0_1_n_n.lhsIdx i q 1).val = (q ⟨0, by decide⟩).val :=
  dot_S64x32_S32x10_S64x10_1_0_0_1_n_n.lhsIdx_val_of_single rfl i q

theorem rhs_ref_0 (i : S64x10.Idx) (q : dot_S64x32_S32x10_S64x10_1_0_0_1_n_n.contr.Idx) :
    (dot_S64x32_S32x10_S64x10_1_0_0_1_n_n.rhsIdx i q 0).val = (q ⟨0, by decide⟩).val :=
  dot_S64x32_S32x10_S64x10_1_0_0_1_n_n.rhsIdx_val_of_single rfl i q

theorem rhs_ref_1 (i : S64x10.Idx) (q : dot_S64x32_S32x10_S64x10_1_0_0_1_n_n.contr.Idx) :
    (dot_S64x32_S32x10_S64x10_1_0_0_1_n_n.rhsIdx i q 1).val = (i 1).val := by
  unfold DotDims.rhsIdx
  rw [dif_neg (show ¬(1 : Fin S32x10.rank) ∈ dot_S64x32_S32x10_S64x10_1_0_0_1_n_n.rhsBatch by decide), dif_pos (show (1 : Fin S32x10.rank) ∈ dot_S64x32_S32x10_S64x10_1_0_0_1_n_n.rhsNonContracting by decide)]
  rfl

theorem ref_dot_apply (L : FVec Ideal S64x32 .f32) (R : FVec Ideal S32x10 .f32) (g : Fin 64) (o : Fin 10) :
    Host.dotGeneral dot_S64x32_S32x10_S64x10_1_0_0_1_n_n none L R (ix2 g o) = ∑ k : Fin 32, L (ix2 g k) * R (ix2 k o) := by
  simp only [Host.dotGeneral]
  rw [Ideal.dotGeneral_apply, ← Equiv.sum_comp (ValueIdx.contrEquiv1 dot_S64x32_S32x10_S64x10_1_0_0_1_n_n 32 rfl rfl).symm]
  refine Finset.sum_congr rfl fun k _ => ?_
  have hk := ValueIdx.contrEquiv1_symm_val dot_S64x32_S32x10_S64x10_1_0_0_1_n_n 32 rfl rfl k
  have el : dot_S64x32_S32x10_S64x10_1_0_0_1_n_n.lhsIdx (ix2 g o) ((ValueIdx.contrEquiv1 dot_S64x32_S32x10_S64x10_1_0_0_1_n_n 32 rfl rfl).symm k) = ix2 g k := funext fun a => Fin.ext (by
    match a with
    | ⟨0, _⟩ => exact lhs_ref_0 _ _
    | ⟨1, _⟩ => exact (lhs_ref_1 _ _).trans hk)
  have er : dot_S64x32_S32x10_S64x10_1_0_0_1_n_n.rhsIdx (ix2 g o) ((ValueIdx.contrEquiv1 dot_S64x32_S32x10_S64x10_1_0_0_1_n_n 32 rfl rfl).symm k) = ix2 k o := funext fun a => Fin.ext (by
    match a with
    | ⟨0, _⟩ => exact (rhs_ref_0 _ _).trans hk
    | ⟨1, _⟩ => exact rhs_ref_1 _ _)
  rw [el, er]

theorem hostDivf_apply {s : Shape} (a b : FVec Ideal s .f32) (i : s.Idx) : Host.divf a b i = Ideal.div (a i) (b i) := rfl

theorem refPool_apply (h : FVec Ideal S100000x32 .f32) (ids : IVec S100000x1 32) (W : FVec Ideal S32x10 .f32) (b : FVec Ideal S1x10 .f32)
    (g : Fin 64) (o : Fin 10) :
    refPool h ids W b (ix2 g o)
      = (∑ k : Fin 32, Ideal.div (∑ e ∈ Finset.univ.filter (fun e : Fin 100000 => (ids (ix2 e (0 : Fin 1))).toInt = (g.val : ℤ)), h (ix2 e k))
            (max (∑ _e ∈ Finset.univ.filter (fun e : Fin 100000 => (ids (ix2 e (0 : Fin 1))).toInt = (g.val : ℤ)), (1 : EReal)) (Ideal.ofBits .f32 0x3F800000#32))
          * W (ix2 k o))
        + b (ix2 (0 : Fin 1) o) := by
  unfold refPool
  rw [addf_apply, ref_dot_apply, biasSpread_apply]
  refine congrArg (· + b (ix2 (0 : Fin 1) o)) (Finset.sum_congr rfl fun k _ => ?_)
  rw [hostDivf_apply, sums_apply, rowSpread_apply, maximumf_apply, counts_apply, spread_apply]

end Cert.PoolRef

end
-- ==== Proof.KI.PoolVal.lean ====
import proofs.«419567_j13065290514766_1_alg».proof.Proof.KI.Pool
import proofs.«419567_j13065290514766_1_alg».proof.Proof.KI.PoolMath
import proofs.«419567_j13065290514766_1_alg».proof.Proof.KI.PoolPay
import proofs.«419567_j13065290514766_1_alg».proof.Proof.KI.PoolRef
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev feat10 (c : Dev nD) : S100000x32.Idx → Elt Ideal .f32 := V c (Pipeline.arrRef spec10 0)
abbrev ids10 (c : Dev nD) : S100000x1.Idx → Elt Ideal .i32 := V c (Pipeline.arrRef spec10 1)
abbrev wfc10 (c : Dev nD) : S32x10.Idx → Elt Ideal .f32 := V c (Pipeline.arrRef spec10 2)
abbrev bfc10 (c : Dev nD) : S1x10.Idx → Elt Ideal .f32 := V c (Pipeline.arrRef spec10 3)

theorem idx_facts10 : ∀ t : Fin cfg10.N,
    win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = 0 ∧ win10_4.index t (1 : Fin 2) = 0 :=
  (by decide +kernel : ∀ t : Fin grid10.N, _)

theorem iblk10_0_apply (c : Dev nD) (t : Fin cfg10.N) (k : Fin 5000) (f : Fin 32) (N : Fin 100000)
    (hN : N.val = 5000 * t.val + k.val) :
    (iblk10 V c 0 t : Vec Ideal S5000x32 .f32) (ix2 k f) = feat10 V c (ix2 N f) := by
  obtain ⟨e0, e1, -⟩ := idx_facts10 t
  unfold iblk10
  rw [View.read_apply]
  show feat10 V c _ = feat10 V c _
  congr 1
  funext a
  apply Fin.ext
  match a with
  | ⟨0, _⟩ => show win10_0.index t (0 : Fin 2) * 5000 + 1 * k.val = N.val; rw [e0, hN]; omega
  | ⟨1, _⟩ => show win10_0.index t (1 : Fin 2) * 32 + 1 * f.val = f.val; rw [e1]; omega

theorem iblk10_1_apply (c : Dev nD) (t : Fin cfg10.N) (k : Fin 5000) (u : Fin 1) (N : Fin 100000)
    (hN : N.val = 5000 * t.val + k.val) :
    (iblk10 V c 1 t : Vec Ideal S5000x1 .i32) (ix2 k u) = ids10 V c (ix2 N u) := by
  obtain ⟨-, -, e0, e1, -⟩ := idx_facts10 t
  unfold iblk10
  rw [View.read_apply]
  show ids10 V c _ = ids10 V c _
  congr 1
  funext a
  apply Fin.ext
  match a with
  | ⟨0, _⟩ => show win10_1.index t (0 : Fin 2) * 5000 + 1 * k.val = N.val; rw [e0, hN]; omega
  | ⟨1, _⟩ => show win10_1.index t (1 : Fin 2) * 1 + 1 * u.val = u.val; rw [e1]; omega

theorem iblk10_2_apply (c : Dev nD) (t : Fin cfg10.N) (k : Fin 32) (o : Fin 10) :
    (iblk10 V c 2 t : Vec Ideal S32x10 .f32) (ix2 k o) = wfc10 V c (ix2 k o) := by
  obtain ⟨-, -, -, -, e0, e1, -⟩ := idx_facts10 t
  unfold iblk10
  rw [View.read_apply]
  show wfc10 V c _ = wfc10 V c _
  congr 1
  funext a
  apply Fin.ext
  match a with
  | ⟨0, _⟩ => show win10_2.index t (0 : Fin 2) * 32 + 1 * k.val = k.val; rw [e0]; omega
  | ⟨1, _⟩ => show win10_2.index t (1 : Fin 2) * 10 + 1 * o.val = o.val; rw [e1]; omega

theorem iblk10_3_apply (c : Dev nD) (t : Fin cfg10.N) (u : Fin 1) (o : Fin 10) :
    (iblk10 V c 3 t : Vec Ideal S1x10 .f32) (ix2 u o) = bfc10 V c (ix2 u o) := by
  obtain ⟨-, -, -, -, -, -, e0, e1, -⟩ := idx_facts10 t
  unfold iblk10
  rw [View.read_apply]
  show bfc10 V c _ = bfc10 V c _
  congr 1
  funext a
  apply Fin.ext
  match a with
  | ⟨0, _⟩ => show win10_3.index t (0 : Fin 2) * 1 + 1 * u.val = u.val; rw [e0]; omega
  | ⟨1, _⟩ => show win10_3.index t (1 : Fin 2) * 10 + 1 * o.val = o.val; rw [e1]; omega

theorem k10_pay1_apply (i : S64x32.Idx) : k10_pay1 (F := Ideal) i = 0 := by
  unfold k10_pay1
  rw [shapeCast_self]
  exact Ideal.ofBits_zero_f32

theorem k10_pay2_apply (i : S64x1.Idx) : k10_pay2 (F := Ideal) i = 0 := by
  unfold k10_pay2
  rw [shapeCast_self]
  exact Ideal.ofBits_zero_f32

theorem step_sums (c : Dev nD) (t : Fin cfg10.N) (T : Fin 20) (hT : T.val = t.val) (acc : Vec Ideal S64x32 .f32)
    (g : Fin 64) (f : Fin 32) :
    k10_pay4 (F := Ideal) (iblk10 V c 1 t) acc (iblk10 V c 0 t) (ix2 g f)
      = acc (ix2 g f) + ∑ k : Fin 5000,
          (if (ids10 V c (ix2 (Cert.PoolMath.row20 T k) (0 : Fin 1))).toInt = (g.val : ℤ) then (1 : EReal) else 0)
            * feat10 V c (ix2 (Cert.PoolMath.row20 T k) f) := by
  refine (k10_pay4_apply (iblk10 V c 1 t) acc (iblk10 V c 0 t) g f).trans ?_
  refine congrArg (acc (ix2 g f) + ·) (Finset.sum_congr rfl fun k _ => ?_)
  rw [iblk10_1_apply V c t k 0 (Cert.PoolMath.row20 T k) (by rw [Cert.PoolMath.row20_val, hT]),
    iblk10_0_apply V c t k f (Cert.PoolMath.row20 T k) (by rw [Cert.PoolMath.row20_val, hT])]

theorem step_counts (c : Dev nD) (t : Fin cfg10.N) (T : Fin 20) (hT : T.val = t.val) (acc : Vec Ideal S64x1 .f32)
    (g : Fin 64) (u : Fin 1) :
    k10_pay5 (F := Ideal) (iblk10 V c 1 t) acc (ix2 g u)
      = acc (ix2 g u) + ∑ k : Fin 5000,
          (if (ids10 V c (ix2 (Cert.PoolMath.row20 T k) (0 : Fin 1))).toInt = (g.val : ℤ) then (1 : EReal) else 0) := by
  refine (k10_pay5_apply (iblk10 V c 1 t) acc g u).trans ?_
  refine congrArg (acc (ix2 g u) + ·) (Finset.sum_congr rfl fun k _ => ?_)
  rw [iblk10_1_apply V c t k 0 (Cert.PoolMath.row20 T k) (by rw [Cert.PoolMath.row20_val, hT])]

theorem sums_last (c : Dev nD) (h19 : 19 < cfg10.N) (g : Fin 64) (f : Fin 32) :
    (accAt10 V c 19 h19).1 (ix2 g f)
      = ∑ e ∈ Finset.univ.filter (fun e : Fin 100000 => (ids10 V c (ix2 e (0 : Fin 1))).toInt = (g.val : ℤ)), feat10 V c (ix2 e f) := by
  have hN : cfg10.N = 20 := N_10
  have key := Cert.PoolMath.pooled20 (k10_pay1 (F := Ideal) (ix2 g f))
    (fun N : Fin 100000 => (ids10 V c (ix2 N (0 : Fin 1))).toInt = (g.val : ℤ))
    (fun N : Fin 100000 => feat10 V c (ix2 N f))
    (fun n h => (accAt10 V c n (lt_of_lt_of_eq h hN.symm)).1 (ix2 g f))
    (fun h => by
      show (accAt10 V c 0 _).1 (ix2 g f) = _
      rw [accAt10_zero]
      exact step_sums V c ⟨0, _⟩ ⟨0, h⟩ rfl _ g f)
    (fun n h => by
      show (accAt10 V c (n + 1) _).1 (ix2 g f) = (accAt10 V c n _).1 (ix2 g f) + _
      rw [accAt10_succ]
      exact step_sums V c ⟨n + 1, _⟩ ⟨n + 1, h⟩ rfl _ g f)
  exact key.trans (by rw [k10_pay1_apply, zero_add])

theorem counts_last (c : Dev nD) (h19 : 19 < cfg10.N) (g : Fin 64) (u : Fin 1) :
    (accAt10 V c 19 h19).2 (ix2 g u)
      = ∑ _e ∈ Finset.univ.filter (fun e : Fin 100000 => (ids10 V c (ix2 e (0 : Fin 1))).toInt = (g.val : ℤ)), (1 : EReal) := by
  have hN : cfg10.N = 20 := N_10
  have key := Cert.PoolMath.pooled_count20 (k10_pay2 (F := Ideal) (ix2 g u))
    (fun N : Fin 100000 => (ids10 V c (ix2 N (0 : Fin 1))).toInt = (g.val : ℤ))
    (fun n h => (accAt10 V c n (lt_of_lt_of_eq h hN.symm)).2 (ix2 g u))
    (fun h => by
      show (accAt10 V c 0 _).2 (ix2 g u) = _
      rw [accAt10_zero]
      exact step_counts V c ⟨0, _⟩ ⟨0, h⟩ rfl _ g u)
    (fun n h => by
      show (accAt10 V c (n + 1) _).2 (ix2 g u) = (accAt10 V c n _).2 (ix2 g u) + _
      rw [accAt10_succ]
      exact step_counts V c ⟨n + 1, _⟩ ⟨n + 1, h⟩ rfl _ g u)
  exact key.trans (by rw [k10_pay2_apply, zero_add])

theorem last_block (c : Dev nD) (t : Fin cfg10.N) (ht : t.val = 19) (g : Fin 64) (o : Fin 10) :
    k10_pay6 (F := Ideal) (accAt10 V c t.val t.isLt).1 (accAt10 V c t.val t.isLt).2 (iblk10 V c 2 t) (iblk10 V c 3 t) (ix2 g o)
      = Cert.PoolRef.refPool (feat10 V c) (ids10 V c) (wfc10 V c) (bfc10 V c) (ix2 g o) := by
  obtain ⟨n, hn⟩ := t
  change n = 19 at ht
  subst ht
  rw [Cert.PoolRef.refPool_apply]
  refine (k10_pay6_apply _ _ _ _ g o).trans ?_
  rw [iblk10_3_apply V c ⟨19, hn⟩ 0 o, counts_last V c hn g 0]
  refine congrArg (· + bfc10 V c (ix2 (0 : Fin 1) o)) (Finset.sum_congr rfl fun k _ => ?_)
  rw [sums_last V c hn g k, iblk10_2_apply V c ⟨19, hn⟩ k o]

theorem mem_blk10_4 (t : Fin cfg10.N) (i : S64x10.Idx) :
    i ∈ ((cfg10.win 4).blk t).view.set
      ↔ ∀ a : Fin 2, win10_4.index t a * S64x10.size a ≤ (i a).val ∧ (i a).val < win10_4.index t a * S64x10.size a + S64x10.size a := by
  show i ∈ ((View.whole main_v108).slice (win10_4.rect t)).set ↔ _
  rw [View.set_slice_whole, Rect.mem_set_unit]
  exact Iff.rfl

theorem flushed10_4_eq (c : Dev nD) (t : Fin cfg10.N) (hf : (cfg10.win 4).flush t = true) :
    (dat10 V c).flushed 4 t
      = ((cfg10.win 4).blk t).view.read (Elt Ideal) (Cert.PoolRef.refPool (feat10 V c) (ids10 V c) (wfc10 V c) (bfc10 V c)) := by
  have hN : cfg10.N = 20 := N_10
  have ht : t.val = 19 := by have := (flush10_4 t).mp hf; have := t.isLt; omega
  obtain ⟨-, -, -, -, -, -, -, -, e0, e1⟩ := idx_facts10 t
  show (cfg10.win 4).cut (grid10.coords t) ((dat10 V c).after 4 t) = _
  rw [after10_4]
  funext y
  obtain ⟨g, o, rfl⟩ : ∃ (g : Fin 64) (o : Fin 10), y = ix2 g o := ⟨y 0, y 1, eq_ix2 y⟩
  rw [View.read_apply]
  have hemb : ((cfg10.win 4).blk t).view.emb (ix2 g o) = (ix2 g o : S64x10.Idx) := by
    funext a
    apply Fin.ext
    match a with
    | ⟨0, _⟩ => show win10_4.index t (0 : Fin 2) * 64 + 1 * g.val = g.val; rw [e0]; omega
    | ⟨1, _⟩ => show win10_4.index t (1 : Fin 2) * 10 + 1 * o.val = o.val; rw [e1]; omega
  rw [hemb]
  exact last_block V c t ht g o

theorem final10_4 (c : Dev nD) :
    (dat10 V c).arrAt 4 cfg10.N = Cert.PoolRef.refPool (feat10 V c) (ids10 V c) (wfc10 V c) (bfc10 V c) := by
  have hN : cfg10.N = 20 := N_10
  refine (dat10 V c).arrAt_eq_of_cover 4 _ (fun t hf => flushed10_4_eq V c t hf) (fun i => ?_)
  obtain ⟨-, -, -, -, -, -, -, -, e0, e1⟩ := idx_facts10 ⟨19, by rw [hN]; decide⟩
  refine ⟨⟨19, by rw [hN]; decide⟩, (flush10_4 _).mpr rfl, ?_⟩
  rw [mem_blk10_4]
  intro a
  have h0 : (i 0).val < 64 := (i 0).isLt
  have h1 : (i 1).val < 10 := (i 1).isLt
  match a with
  | ⟨0, _⟩ =>
    show win10_4.index ⟨19, _⟩ (0 : Fin 2) * 64 ≤ (i 0).val ∧ (i 0).val < win10_4.index ⟨19, _⟩ (0 : Fin 2) * 64 + 64
    rw [e0]; omega
  | ⟨1, _⟩ =>
    show win10_4.index ⟨19, _⟩ (1 : Fin 2) * 10 ≤ (i 1).val ∧ (i 1).val < win10_4.index ⟨19, _⟩ (1 : Fin 2) * 10 + 10
    rw [e1]; omega

theorem pool_value (c : Dev nD) : (dat10 (F := Ideal) V c).arrAt 4 cfg10.N
    = addf (Host.dotGeneral (φ₂ := .f32) Cert.ReferenceIdeal.dot_S64x32_S32x10_S64x10_1_0_0_1_n_n none
          (Host.divf (Host.scatterAdd (w := 32) Cert.ReferenceIdeal.scatter_S64x32_S100000x1_S100000x32_1_0_0_1 (broadcastInDim Cert.ReferenceIdeal.S64x32 ![] Cert.ReferenceIdeal.Facts₀.bcast_S_S64x32 (constant (F := Ideal) Cert.ReferenceIdeal.S_ .f32 0x00000000#32)) (V c (Pipeline.arrRef spec10 1)) (V c (Pipeline.arrRef spec10 0)))
                     (broadcastInDim Cert.ReferenceIdeal.S64x32 ![0, 1] Cert.ReferenceIdeal.Facts₀.bcast_S64x1_S64x32_0_1 (broadcastInDim Cert.ReferenceIdeal.S64x1 ![0] Cert.ReferenceIdeal.Facts₀.bcast_S64_S64x1_0
                        (maximumf (Host.scatterAdd (w := 32) Cert.ReferenceIdeal.scatter_S64_S100000x1_S100000_n_0_0_1 (broadcastInDim Cert.ReferenceIdeal.S64 ![] Cert.ReferenceIdeal.Facts₀.bcast_S_S64 (constant (F := Ideal) Cert.ReferenceIdeal.S_ .f32 0x00000000#32)) (V c (Pipeline.arrRef spec10 1)) (broadcastInDim Cert.ReferenceIdeal.S100000 ![] Cert.ReferenceIdeal.Facts₀.bcast_S_S100000 (constant (F := Ideal) Cert.ReferenceIdeal.S_ .f32 0x3F800000#32)))
                                  (broadcastInDim Cert.ReferenceIdeal.S64 ![] Cert.ReferenceIdeal.Facts₀.bcast_S_S64 (constant (F := Ideal) Cert.ReferenceIdeal.S_ .f32 0x3F800000#32))))))
          (V c (Pipeline.arrRef spec10 2)))
        (broadcastInDim Cert.ReferenceIdeal.S64x10 ![0, 1] Cert.ReferenceIdeal.Facts₀.bcast_S1x10_S64x10_0_1 (V c (Pipeline.arrRef spec10 3))) := by
  have h := final10_4 V c
  unfold Cert.PoolRef.refPool at h
  exact h

end Cert.KernelIdeal.Gen

end
-- ==== Proof.KI.KVal.lean ====
import proofs.«419567_j13065290514766_1_alg».proof.Proof.KI.Run1
import proofs.«419567_j13065290514766_1_alg».proof.Proof.KI.HostReads
import proofs.«419567_j13065290514766_1_alg».proof.Proof.RefSpec
import proofs.«419567_j13065290514766_1_alg».proof.Proof.KI.MmVal
import proofs.«419567_j13065290514766_1_alg».proof.Proof.KI.BrVal
import proofs.«419567_j13065290514766_1_alg».proof.Proof.KI.PoolVal

noncomputable section

namespace Cert.KernelIdeal.Gen

open Idealize.ShloMosaic Idealize.ShloMosaic.TcCoe
open Idealize.SL Idealize.SL.Sem
open Idealize.ShloMosaic.Pipeline (Dat Cfg Window)

variable (m : (ℓ : Loc nD τ sig) → Buf (Elt Ideal) ℓ) (ρ : Dev nD → PrngReg)

def srcK (c : Dev nD) : IVec Cert.ReferenceIdeal.S1700000 32 := Cert.ReferenceIdeal.Spec.srcOf (m ((c : Thread nD τ).loc main_arg1))
def dstK (c : Dev nD) : IVec Cert.ReferenceIdeal.S1700000 32 := Cert.ReferenceIdeal.Spec.dstOf (m ((c : Thread nD τ).loc main_arg1))
def nrmK (c : Dev nD) : FVec Ideal Cert.ReferenceIdeal.S1700000x1 .f32 := Cert.ReferenceIdeal.Spec.normOf (F := Ideal) (srcK m c) (dstK m c)

def lay1 (c : Dev nD) : FVec Ideal Cert.ReferenceIdeal.S100000x128 .f32 :=
  Cert.ReferenceIdeal.Spec.layerA (F := Ideal) (m ((c : Thread nD τ).loc main_arg0)) (m ((c : Thread nD τ).loc main_arg3)) (m ((c : Thread nD τ).loc main_arg4)) (srcK m c) (dstK m c) (nrmK m c)

def lay2 (c : Dev nD) : FVec Ideal Cert.ReferenceIdeal.S100000x128 .f32 :=
  Cert.ReferenceIdeal.Spec.layerA (F := Ideal) (lay1 m c) (m ((c : Thread nD τ).loc main_arg5)) (m ((c : Thread nD τ).loc main_arg6)) (srcK m c) (dstK m c) (nrmK m c)

def lay3 (c : Dev nD) : FVec Ideal Cert.ReferenceIdeal.S100000x128 .f32 :=
  Cert.ReferenceIdeal.Spec.layerA (F := Ideal) (lay2 m c) (m ((c : Thread nD τ).loc main_arg7)) (m ((c : Thread nD τ).loc main_arg8)) (srcK m c) (dstK m c) (nrmK m c)

def lay4 (c : Dev nD) : FVec Ideal Cert.ReferenceIdeal.S100000x64 .f32 :=
  Cert.ReferenceIdeal.Spec.layerB (F := Ideal) (lay3 m c) (m ((c : Thread nD τ).loc main_arg9)) (m ((c : Thread nD τ).loc main_arg10)) (srcK m c) (dstK m c) (nrmK m c)

def lay5 (c : Dev nD) : FVec Ideal Cert.ReferenceIdeal.S100000x32 .f32 :=
  Cert.ReferenceIdeal.Spec.layerC (F := Ideal) (lay4 m c) (m ((c : Thread nD τ).loc main_arg11)) (m ((c : Thread nD τ).loc main_arg12)) (srcK m c) (dstK m c) (nrmK m c)

theorem gcn_stages (c : Dev nD) :
    Cert.ReferenceIdeal.Spec.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))
      = Cert.ReferenceIdeal.Spec.poolOf (F := Ideal) (lay5 m c) (broadcastInDim Cert.ReferenceIdeal.S100000x1 ![0] Cert.ReferenceIdeal.Gen.bcast_S100000_S100000x1_0 (m ((c : Thread nD τ).loc main_arg2))) (m ((c : Thread nD τ).loc main_arg13))
          (broadcastInDim Cert.ReferenceIdeal.S1x10 ![1] Cert.ReferenceIdeal.Gen.bcast_S10_S1x10_1 (m ((c : Thread nD τ).loc main_arg14))) := by
  unfold Cert.ReferenceIdeal.Spec.gcn lay5 lay4 lay3 lay2 lay1 nrmK srcK dstK; rfl

abbrev Args : List (Ref sig .tc) := [main_arg0, main_arg1, main_arg2, main_arg3, main_arg4, main_arg5, main_arg6, main_arg7, main_arg8, main_arg9, main_arg10, main_arg11, main_arg12, main_arg13, main_arg14]
abbrev Keep : List (Ref sig .tc) := [main_v3, main_v6, main_v30, main_arg0, main_arg1, main_arg2, main_arg3, main_arg4, main_arg5, main_arg6, main_arg7, main_arg8, main_arg9, main_arg10, main_arg11, main_arg12, main_arg13, main_arg14]

theorem W3_arg (c : Dev nD) (r : Ref sig .tc) (hr : r ∈ Args) : W3 m ρ c (Proc.devRef .tc r) = m ((c : Thread nD τ).loc r) :=
  (W3_of m ρ c r ((by decide : ∀ r ∈ Args, r ∉ hostOps0_2_W) r hr)).trans
    ((W2_of m ρ c r ((by decide : ∀ r ∈ Args, r ∉ hostOps0_1_W) r hr)).trans
      ((W1_of m ρ c r ((by decide : ∀ r ∈ Args, r ∉ hostOps0_W) r hr)).trans rfl))

theorem W3_src (c : Dev nD) : W3 m ρ c (Proc.devRef .tc main_v3) = srcK m c := prefix_v3 (W0 m ρ c)
theorem W3_dst (c : Dev nD) : W3 m ρ c (Proc.devRef .tc main_v6) = dstK m c := prefix_v6 (W0 m ρ c)
theorem W3_nrm (c : Dev nD) : W3 m ρ c (Proc.devRef .tc main_v30) = nrmK m c := prefix_v30 (W0 m ρ c)

def Kept (W : Dev nD → Valuation τ sig (Elt Ideal)) : Prop :=
  ∀ c r, r ∈ Keep → W c (Proc.devRef .tc r) = W3 m ρ c (Proc.devRef .tc r)

theorem keep4 : Kept m ρ (W4 m ρ) := fun c r hr =>
  (W4_keep m ρ c r ((by decide : ∀ r ∈ Keep, r ≠ main_v31) r hr))
theorem keep5 : Kept m ρ (W5 m ρ) := fun c r hr =>
  (W5_of m ρ c r ((by decide : ∀ r ∈ Keep, r ∉ hostOps1_W) r hr)).trans (keep4 m ρ c r hr)
theorem keep6 : Kept m ρ (W6 m ρ) := fun c r hr =>
  (W6_keep m ρ c r ((by decide : ∀ r ∈ Keep, r ≠ main_v45) r hr)).trans (keep5 m ρ c r hr)
theorem keep7 : Kept m ρ (W7 m ρ) := fun c r hr =>
  (W7_keep m ρ c r ((by decide : ∀ r ∈ Keep, r ≠ main_v46) r hr)).trans (keep6 m ρ c r hr)
theorem keep8 : Kept m ρ (W8 m ρ) := fun c r hr =>
  (W8_of m ρ c r ((by decide : ∀ r ∈ Keep, r ∉ hostOps3_W) r hr)).trans (keep7 m ρ c r hr)
theorem keep9 : Kept m ρ (W9 m ρ) := fun c r hr =>
  (W9_keep m ρ c r ((by decide : ∀ r ∈ Keep, r ≠ main_v60) r hr)).trans (keep8 m ρ c r hr)
theorem keep10 : Kept m ρ (W10 m ρ) := fun c r hr =>
  (W10_keep m ρ c r ((by decide : ∀ r ∈ Keep, r ≠ main_v61) r hr)).trans (keep9 m ρ c r hr)
theorem keep11 : Kept m ρ (W11 m ρ) := fun c r hr =>
  (W11_of m ρ c r ((by decide : ∀ r ∈ Keep, r ∉ hostOps5_W) r hr)).trans (keep10 m ρ c r hr)
theorem keep12 : Kept m ρ (W12 m ρ) := fun c r hr =>
  (W12_keep m ρ c r ((by decide : ∀ r ∈ Keep, r ≠ main_v75) r hr)).trans (keep11 m ρ c r hr)
theorem keep13 : Kept m ρ (W13 m ρ) := fun c r hr =>
  (W13_keep m ρ c r ((by decide : ∀ r ∈ Keep, r ≠ main_v76) r hr)).trans (keep12 m ρ c r hr)
theorem keep14 : Kept m ρ (W14 m ρ) := fun c r hr =>
  (W14_of m ρ c r ((by decide : ∀ r ∈ Keep, r ∉ hostOps7_W) r hr)).trans (keep13 m ρ c r hr)
theorem keep15 : Kept m ρ (W15 m ρ) := fun c r hr =>
  (W15_keep m ρ c r ((by decide : ∀ r ∈ Keep, r ≠ main_v90) r hr)).trans (keep14 m ρ c r hr)
theorem keep16 : Kept m ρ (W16 m ρ) := fun c r hr =>
  (W16_keep m ρ c r ((by decide : ∀ r ∈ Keep, r ≠ main_v91) r hr)).trans (keep15 m ρ c r hr)
theorem keep17 : Kept m ρ (W17 m ρ) := fun c r hr =>
  (W17_of m ρ c r ((by decide : ∀ r ∈ Keep, r ∉ hostOps9_W) r hr)).trans (keep16 m ρ c r hr)
theorem keep18 : Kept m ρ (W18 m ρ) := fun c r hr =>
  (W18_keep m ρ c r ((by decide : ∀ r ∈ Keep, r ≠ main_v105) r hr)).trans (keep17 m ρ c r hr)
theorem keep19 : Kept m ρ (W19 m ρ) := fun c r hr =>
  (W19_of m ρ c r ((by decide : ∀ r ∈ Keep, r ∉ hostOps10_W) r hr)).trans (keep18 m ρ c r hr)

theorem args_keep : ∀ r ∈ Args, r ∈ Keep := by decide

variable {m ρ} in
theorem Kept.arg {W} (h : Kept m ρ W) (c : Dev nD) (r : Ref sig .tc) (hr : r ∈ Args) :
    W c (Proc.devRef .tc r) = m ((c : Thread nD τ).loc r) := (h c r (args_keep r hr)).trans (W3_arg m ρ c r hr)
variable {m ρ} in
theorem Kept.src {W} (h : Kept m ρ W) (c : Dev nD) : W c (Proc.devRef .tc main_v3) = srcK m c := (h c main_v3 (by decide)).trans (W3_src m ρ c)
variable {m ρ} in
theorem Kept.dst {W} (h : Kept m ρ W) (c : Dev nD) : W c (Proc.devRef .tc main_v6) = dstK m c := (h c main_v6 (by decide)).trans (W3_dst m ρ c)
variable {m ρ} in
theorem Kept.nrm {W} (h : Kept m ρ W) (c : Dev nD) : W c (Proc.devRef .tc main_v30) = nrmK m c := (h c main_v30 (by decide)).trans (W3_nrm m ρ c)

theorem W4_v31 (c : Dev nD) : (W4 m ρ c (Proc.devRef .tc main_v31) : FVec Ideal Cert.ReferenceIdeal.S100000x128 .f32) = Host.dotGeneral (F := Ideal) (φ₁ := .f32) (φ₂ := .f32) Cert.ReferenceIdeal.dot_S100000x128_S128x128_S100000x128_1_0_0_1_n_n none (m ((c : Thread nD τ).loc main_arg0)) (m ((c : Thread nD τ).loc main_arg3)) := by
  rw [← W3_arg m ρ c main_arg0 (by decide), ← W3_arg m ρ c main_arg3 (by decide)]
  exact (W4_arr m ρ c 2).trans (mm0_value (V3 m ρ) c)

theorem W5_v43 (c : Dev nD) :
    (W5 m ρ c (Proc.devRef .tc main_v43) : FVec Ideal Cert.ReferenceIdeal.S100000x128 .f32) = Cert.ReferenceIdeal.Spec.aggA (F := Ideal) (Host.dotGeneral (F := Ideal) (φ₁ := .f32) (φ₂ := .f32) Cert.ReferenceIdeal.dot_S100000x128_S128x128_S100000x128_1_0_0_1_n_n none (m ((c : Thread nD τ).loc main_arg0)) (m ((c : Thread nD τ).loc main_arg3))) (srcK m c) (dstK m c) (nrmK m c) := by
  refine (hostOps1_v43 (W4 m ρ c)).trans ?_
  rw [W4_v31, (keep4 m ρ).src, (keep4 m ρ).dst, (keep4 m ρ).nrm]
theorem W5_v44 (c : Dev nD) :
    (W5 m ρ c (Proc.devRef .tc main_v44) : FVec Ideal Cert.ReferenceIdeal.S1x128 .f32) = broadcastInDim Cert.ReferenceIdeal.S1x128 ![1] Cert.ReferenceIdeal.Gen.bcast_S128_S1x128_1 (m ((c : Thread nD τ).loc main_arg4)) := by
  refine (hostOps1_v44 (W4 m ρ c)).trans ?_
  rw [(keep4 m ρ).arg c main_arg4 (by decide)]
  exact bias_row_S128 _

theorem W6_v45 (c : Dev nD) : (W6 m ρ c (Proc.devRef .tc main_v45) : FVec Ideal Cert.ReferenceIdeal.S100000x128 .f32) = lay1 m c :=
  ((W6_arr m ρ c 2).trans (br1_value (V5 m ρ) c)).trans ((congrArg₂ (Cert.ReferenceIdeal.Spec.reluA (F := Ideal)) (W5_v43 m ρ c) (W5_v44 m ρ c)).trans (by unfold lay1 Cert.ReferenceIdeal.Spec.layerA; rfl))

theorem W7_v46 (c : Dev nD) : (W7 m ρ c (Proc.devRef .tc main_v46) : FVec Ideal Cert.ReferenceIdeal.S100000x128 .f32) = Host.dotGeneral (F := Ideal) (φ₁ := .f32) (φ₂ := .f32) Cert.ReferenceIdeal.dot_S100000x128_S128x128_S100000x128_1_0_0_1_n_n none (lay1 m c) (m ((c : Thread nD τ).loc main_arg5)) := by
  rw [← W6_v45 m ρ c, ← (keep6 m ρ).arg c main_arg5 (by decide)]
  exact (W7_arr m ρ c 2).trans (mm2_value (V6 m ρ) c)

theorem W8_v58 (c : Dev nD) :
    (W8 m ρ c (Proc.devRef .tc main_v58) : FVec Ideal Cert.ReferenceIdeal.S100000x128 .f32) = Cert.ReferenceIdeal.Spec.aggA (F := Ideal) (Host.dotGeneral (F := Ideal) (φ₁ := .f32) (φ₂ := .f32) Cert.ReferenceIdeal.dot_S100000x128_S128x128_S100000x128_1_0_0_1_n_n none (lay1 m c) (m ((c : Thread nD τ).loc main_arg5))) (srcK m c) (dstK m c) (nrmK m c) := by
  refine (hostOps3_v58 (W7 m ρ c)).trans ?_
  rw [W7_v46, (keep7 m ρ).src, (keep7 m ρ).dst, (keep7 m ρ).nrm]
theorem W8_v59 (c : Dev nD) :
    (W8 m ρ c (Proc.devRef .tc main_v59) : FVec Ideal Cert.ReferenceIdeal.S1x128 .f32) = broadcastInDim Cert.ReferenceIdeal.S1x128 ![1] Cert.ReferenceIdeal.Gen.bcast_S128_S1x128_1 (m ((c : Thread nD τ).loc main_arg6)) := by
  refine (hostOps3_v59 (W7 m ρ c)).trans ?_
  rw [(keep7 m ρ).arg c main_arg6 (by decide)]
  exact bias_row_S128 _

theorem W9_v60 (c : Dev nD) : (W9 m ρ c (Proc.devRef .tc main_v60) : FVec Ideal Cert.ReferenceIdeal.S100000x128 .f32) = lay2 m c :=
  ((W9_arr m ρ c 2).trans (br3_value (V8 m ρ) c)).trans ((congrArg₂ (Cert.ReferenceIdeal.Spec.reluA (F := Ideal)) (W8_v58 m ρ c) (W8_v59 m ρ c)).trans (by unfold lay2 Cert.ReferenceIdeal.Spec.layerA; rfl))

theorem W10_v61 (c : Dev nD) : (W10 m ρ c (Proc.devRef .tc main_v61) : FVec Ideal Cert.ReferenceIdeal.S100000x128 .f32) = Host.dotGeneral (F := Ideal) (φ₁ := .f32) (φ₂ := .f32) Cert.ReferenceIdeal.dot_S100000x128_S128x128_S100000x128_1_0_0_1_n_n none (lay2 m c) (m ((c : Thread nD τ).loc main_arg7)) := by
  rw [← W9_v60 m ρ c, ← (keep9 m ρ).arg c main_arg7 (by decide)]
  exact (W10_arr m ρ c 2).trans (mm4_value (V9 m ρ) c)

theorem W11_v73 (c : Dev nD) :
    (W11 m ρ c (Proc.devRef .tc main_v73) : FVec Ideal Cert.ReferenceIdeal.S100000x128 .f32) = Cert.ReferenceIdeal.Spec.aggA (F := Ideal) (Host.dotGeneral (F := Ideal) (φ₁ := .f32) (φ₂ := .f32) Cert.ReferenceIdeal.dot_S100000x128_S128x128_S100000x128_1_0_0_1_n_n none (lay2 m c) (m ((c : Thread nD τ).loc main_arg7))) (srcK m c) (dstK m c) (nrmK m c) := by
  refine (hostOps5_v73 (W10 m ρ c)).trans ?_
  rw [W10_v61, (keep10 m ρ).src, (keep10 m ρ).dst, (keep10 m ρ).nrm]
theorem W11_v74 (c : Dev nD) :
    (W11 m ρ c (Proc.devRef .tc main_v74) : FVec Ideal Cert.ReferenceIdeal.S1x128 .f32) = broadcastInDim Cert.ReferenceIdeal.S1x128 ![1] Cert.ReferenceIdeal.Gen.bcast_S128_S1x128_1 (m ((c : Thread nD τ).loc main_arg8)) := by
  refine (hostOps5_v74 (W10 m ρ c)).trans ?_
  rw [(keep10 m ρ).arg c main_arg8 (by decide)]
  exact bias_row_S128 _

theorem W12_v75 (c : Dev nD) : (W12 m ρ c (Proc.devRef .tc main_v75) : FVec Ideal Cert.ReferenceIdeal.S100000x128 .f32) = lay3 m c :=
  ((W12_arr m ρ c 2).trans (br5_value (V11 m ρ) c)).trans ((congrArg₂ (Cert.ReferenceIdeal.Spec.reluA (F := Ideal)) (W11_v73 m ρ c) (W11_v74 m ρ c)).trans (by unfold lay3 Cert.ReferenceIdeal.Spec.layerA; rfl))

theorem W13_v76 (c : Dev nD) : (W13 m ρ c (Proc.devRef .tc main_v76) : FVec Ideal Cert.ReferenceIdeal.S100000x64 .f32) = Host.dotGeneral (F := Ideal) (φ₁ := .f32) (φ₂ := .f32) Cert.ReferenceIdeal.dot_S100000x128_S128x64_S100000x64_1_0_0_1_n_n none (lay3 m c) (m ((c : Thread nD τ).loc main_arg9)) := by
  rw [← W12_v75 m ρ c, ← (keep12 m ρ).arg c main_arg9 (by decide)]
  exact (W13_arr m ρ c 2).trans (mm6_value (V12 m ρ) c)

theorem W14_v88 (c : Dev nD) :
    (W14 m ρ c (Proc.devRef .tc main_v88) : FVec Ideal Cert.ReferenceIdeal.S100000x64 .f32) = Cert.ReferenceIdeal.Spec.aggB (F := Ideal) (Host.dotGeneral (F := Ideal) (φ₁ := .f32) (φ₂ := .f32) Cert.ReferenceIdeal.dot_S100000x128_S128x64_S100000x64_1_0_0_1_n_n none (lay3 m c) (m ((c : Thread nD τ).loc main_arg9))) (srcK m c) (dstK m c) (nrmK m c) := by
  refine (hostOps7_v88 (W13 m ρ c)).trans ?_
  rw [W13_v76, (keep13 m ρ).src, (keep13 m ρ).dst, (keep13 m ρ).nrm]
theorem W14_v89 (c : Dev nD) :
    (W14 m ρ c (Proc.devRef .tc main_v89) : FVec Ideal Cert.ReferenceIdeal.S1x64 .f32) = broadcastInDim Cert.ReferenceIdeal.S1x64 ![1] Cert.ReferenceIdeal.Gen.bcast_S64_S1x64_1 (m ((c : Thread nD τ).loc main_arg10)) := by
  refine (hostOps7_v89 (W13 m ρ c)).trans ?_
  rw [(keep13 m ρ).arg c main_arg10 (by decide)]
  exact bias_row_S64 _

theorem W15_v90 (c : Dev nD) : (W15 m ρ c (Proc.devRef .tc main_v90) : FVec Ideal Cert.ReferenceIdeal.S100000x64 .f32) = lay4 m c :=
  ((W15_arr m ρ c 2).trans (br7_value (V14 m ρ) c)).trans ((congrArg₂ (Cert.ReferenceIdeal.Spec.reluB (F := Ideal)) (W14_v88 m ρ c) (W14_v89 m ρ c)).trans (by unfold lay4 Cert.ReferenceIdeal.Spec.layerB; rfl))

theorem W16_v91 (c : Dev nD) : (W16 m ρ c (Proc.devRef .tc main_v91) : FVec Ideal Cert.ReferenceIdeal.S100000x32 .f32) = Host.dotGeneral (F := Ideal) (φ₁ := .f32) (φ₂ := .f32) Cert.ReferenceIdeal.dot_S100000x64_S64x32_S100000x32_1_0_0_1_n_n none (lay4 m c) (m ((c : Thread nD τ).loc main_arg11)) := by
  rw [← W15_v90 m ρ c, ← (keep15 m ρ).arg c main_arg11 (by decide)]
  exact (W16_arr m ρ c 2).trans (mm8_value (V15 m ρ) c)

theorem W17_v103 (c : Dev nD) :
    (W17 m ρ c (Proc.devRef .tc main_v103) : FVec Ideal Cert.ReferenceIdeal.S100000x32 .f32) = Cert.ReferenceIdeal.Spec.aggC (F := Ideal) (Host.dotGeneral (F := Ideal) (φ₁ := .f32) (φ₂ := .f32) Cert.ReferenceIdeal.dot_S100000x64_S64x32_S100000x32_1_0_0_1_n_n none (lay4 m c) (m ((c : Thread nD τ).loc main_arg11))) (srcK m c) (dstK m c) (nrmK m c) := by
  refine (hostOps9_v103 (W16 m ρ c)).trans ?_
  rw [W16_v91, (keep16 m ρ).src, (keep16 m ρ).dst, (keep16 m ρ).nrm]
theorem W17_v104 (c : Dev nD) :
    (W17 m ρ c (Proc.devRef .tc main_v104) : FVec Ideal Cert.ReferenceIdeal.S1x32 .f32) = broadcastInDim Cert.ReferenceIdeal.S1x32 ![1] Cert.ReferenceIdeal.Gen.bcast_S32_S1x32_1 (m ((c : Thread nD τ).loc main_arg12)) := by
  refine (hostOps9_v104 (W16 m ρ c)).trans ?_
  rw [(keep16 m ρ).arg c main_arg12 (by decide)]
  exact bias_row_S32 _

theorem W18_v105 (c : Dev nD) : (W18 m ρ c (Proc.devRef .tc main_v105) : FVec Ideal Cert.ReferenceIdeal.S100000x32 .f32) = lay5 m c :=
  ((W18_arr m ρ c 2).trans (br9_value (V17 m ρ) c)).trans ((congrArg₂ (Cert.ReferenceIdeal.Spec.reluC (F := Ideal)) (W17_v103 m ρ c) (W17_v104 m ρ c)).trans (by unfold lay5 Cert.ReferenceIdeal.Spec.layerC; rfl))

theorem W19_v105 (c : Dev nD) : (W19 m ρ c (Proc.devRef .tc main_v105) : FVec Ideal Cert.ReferenceIdeal.S100000x32 .f32) = lay5 m c :=
  (W19_of m ρ c main_v105 (by decide)).trans (W18_v105 m ρ c)
theorem W19_v106 (c : Dev nD) :
    (W19 m ρ c (Proc.devRef .tc main_v106) : IVec Cert.ReferenceIdeal.S100000x1 32) = broadcastInDim Cert.ReferenceIdeal.S100000x1 ![0] Cert.ReferenceIdeal.Gen.bcast_S100000_S100000x1_0 (m ((c : Thread nD τ).loc main_arg2)) := by
  refine (hostOps10_v106 (W18 m ρ c)).trans ?_
  rw [(keep18 m ρ).arg c main_arg2 (by decide)]
  exact ids_col_S100000 _
theorem W19_v107 (c : Dev nD) :
    (W19 m ρ c (Proc.devRef .tc main_v107) : FVec Ideal Cert.ReferenceIdeal.S1x10 .f32) = broadcastInDim Cert.ReferenceIdeal.S1x10 ![1] Cert.ReferenceIdeal.Gen.bcast_S10_S1x10_1 (m ((c : Thread nD τ).loc main_arg14)) := by
  refine (hostOps10_v107 (W18 m ρ c)).trans ?_
  rw [(keep18 m ρ).arg c main_arg14 (by decide)]
  exact bias_row_S10 _
theorem W20_v108' (c : Dev nD) :
    (W20 m ρ c (Proc.devRef .tc main_v108) : FVec Ideal Cert.ReferenceIdeal.S64x10 .f32) = Cert.ReferenceIdeal.Spec.poolOf (F := Ideal) (W19 m ρ c (Proc.devRef .tc main_v105)) (W19 m ρ c (Proc.devRef .tc main_v106)) (W19 m ρ c (Proc.devRef .tc main_arg13)) (W19 m ρ c (Proc.devRef .tc main_v107)) :=
  (W20_out m ρ c).trans (pool_value (V19 m ρ) c)

/-- The program's result buffer holds the reference network of the launched arguments: each item's value is the reference's stage of the values one item before. -/
theorem kernel_value (c : Dev nD) :
    W20 (F := Ideal) m ρ c (Proc.devRef .tc main_v108) = Cert.ReferenceIdeal.Spec.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [gcn_stages]
  refine (W20_v108' m ρ c).trans ?_
  rw [W19_v105, W19_v106, (keep19 m ρ).arg c main_arg13 (by decide), W19_v107]

end Cert.KernelIdeal.Gen

end
-- ==== Proof.lean ====
import proofs.«419567_j13065290514766_1_alg».proof.Defs
import proofs.«419567_j13065290514766_1_alg».proof.Proof.Gen.Kernel
import proofs.«419567_j13065290514766_1_alg».proof.Proof.Gen.KernelIdeal
import proofs.«419567_j13065290514766_1_alg».proof.Proof.Gen.ReferenceIdeal
import proofs.«419567_j13065290514766_1_alg».proof.Proof.Gen.Pre_finite_inputs
import proofs.«419567_j13065290514766_1_alg».proof.Proof.K.Run
import proofs.«419567_j13065290514766_1_alg».proof.Proof.KI.Run
import proofs.«419567_j13065290514766_1_alg».proof.Proof.KI.KVal
import Idealize.ShloMosaic.Adequacy
import Idealize.ShloMosaic.Init

noncomputable section

namespace Cert.Proof

open Idealize.ShloMosaic Idealize.ShloMosaic.TcCoe Idealize.SL.Sem

/-- The kernel program runs to the end, and every argument, which no item writes, ends as launched. -/
theorem frame_k : @Cert.frame_Kernel Cert.Kernel.Gen.facts Cert.Pre_finite_inputs.Gen.facts := fun m ρ _ =>
  (θ_run (Cert.Kernel.defs (F := Bits)) _ _).mono (fun r h c => by
    have a := Cert.Kernel.Gen.launch_kept m ρ h c
    repeat' apply And.intro
    all_goals exact a _ (by decide) (by decide))
    (Cert.Kernel.Gen.run_all (F := Bits) m ρ)

theorem frame_ki : @Cert.frame_KernelIdeal Cert.KernelIdeal.Gen.facts Cert.Pre_finite_inputs.Gen.facts := fun m ρ _ =>
  (θ_run (Cert.KernelIdeal.defs (F := Ideal)) _ _).mono (fun r h c => by
    have a := Cert.KernelIdeal.Gen.launch_kept m ρ h c
    repeat' apply And.intro
    all_goals exact a _ (by decide) (by decide))
    (Cert.KernelIdeal.Gen.run_all (F := Ideal) m ρ)

/-- The reference is a host program: its run ends with every argument as launched. -/
theorem frame_ri : @Cert.frame_ReferenceIdeal Cert.ReferenceIdeal.Gen.facts Cert.Pre_finite_inputs.Gen.facts := fun m ρ _ =>
  (θ_run (Cert.ReferenceIdeal.defs (F := Ideal)) _ _).mono (fun _ h c => (h c).2) (Cert.ReferenceIdeal.Value.run (F := Ideal) m ρ)

/-- Both idealized programs end at the network of the argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  apply Exists.intro
  refine ⟨?_, ?_⟩
  · exact (θ_run (Cert.KernelIdeal.defs (F := Ideal)) _ _).mono (fun r h c => by
      have a := Cert.KernelIdeal.Gen.launch_kept m ρ h c
      refine ⟨(h c _ (Cert.KernelIdeal.Gen.mem_uc Cert.KernelIdeal.main_v108 (by decide))).trans (Cert.KernelIdeal.Gen.kernel_value m ρ c), ?_⟩
      repeat' apply And.intro
      all_goals exact a _ (by decide) (by decide))
      (Cert.KernelIdeal.Gen.run_all (F := Ideal) m ρ)
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Spec.res_eq]
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
